-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1024 : Shape := ⟨2, ![10000, 1024]⟩
abbrev S160000 : Shape := ⟨1, ![160000]⟩
abbrev S1024x1024 : Shape := ⟨2, ![1024, 1024]⟩
abbrev S1024 : Shape := ⟨1, ![1024]⟩
abbrev S1024x64 : Shape := ⟨2, ![1024, 64]⟩
abbrev S64 : Shape := ⟨1, ![64]⟩
abbrev S_ : Shape := ⟨0, ![]⟩

class Facts : Prop where
  bcast_S_S10000x1024 : S_.BroadcastsInDim S10000x1024 (![] : Fin 0 → Fin S10000x1024.rank)
  reducesTo_S10000x1024_S_d0_1 : S10000x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S160000 : S_.BroadcastsInDim S160000 (![] : Fin 0 → Fin S160000.rank)
  reducesTo_S160000_S_d0 : S160000.ReducesTo [0] S_

variable [Facts]

def fn_part2 {F : FTy → Type} [FloatOps F] (main_arg1 : IVec S160000 32) (main_arg2 : IVec S160000 32) (main_v33 : IVec S_ 1) : IVec S_ 1 :=
  let main_c_12 : IVec S_ 32 := constantI S_ 32 0#32
  let main_v34 : IVec S160000 32 := broadcastInDim S160000 ![] bcast_S_S160000 main_c_12
  let main_v35 : IVec S160000 1 := cmpi .sge main_arg1 main_v34
  let main_c_13 : IVec S_ 1 := constantI S_ 1 1#1
  let main_v36 : IVec S_ 1 := (fun x v => Host.reduce IntOp.andi x v reducesTo_S160000_S_d0 h_S_) main_v35 main_c_13
  let main_v37 : IVec S_ 1 := andi main_v33 main_v36
  let main_c_14 : IVec S_ 32 := constantI S_ 32 10000#32
  let main_v38 : IVec S160000 32 := broadcastInDim S160000 ![] bcast_S_S160000 main_c_14
  let main_v39 : IVec S160000 1 := cmpi .slt main_arg1 main_v38
  let main_c_15 : IVec S_ 1 := constantI S_ 1 1#1
  let main_v40 : IVec S_ 1 := (fun x v => Host.reduce IntOp.andi x v reducesTo_S160000_S_d0 h_S_) main_v39 main_c_15
  let main_v41 : IVec S_ 1 := andi main_v37 main_v40
  let main_c_16 : IVec S_ 32 := constantI S_ 32 0#32
  let main_v42 : IVec S160000 32 := broadcastInDim S160000 ![] bcast_S_S160000 main_c_16
  let main_v43 : IVec S160000 1 := cmpi .sge main_arg2 main_v42
  let main_c_17 : IVec S_ 1 := constantI S_ 1 1#1
  let main_v44 : IVec S_ 1 := (fun x v => Host.reduce IntOp.andi x v reducesTo_S160000_S_d0 h_S_) main_v43 main_c_17
  let main_v45 : IVec S_ 1 := andi main_v41 main_v44
  main_v45

def fn_part1 {F : FTy → Type} [FloatOps F] (main_arg1 : IVec S160000 32) (main_arg2 : IVec S160000 32) (main_arg6 : FVec F S1024 .f32) (main_arg7 : FVec F S1024x64 .f32) (main_arg8 : FVec F S64 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x64 .f32 := Host.absf main_arg7
  let main_cst_8 : FVec F S_ .f32 := constant S_ .f32 0x7F800000#32
  let main_v25 : FVec F S1024x64 .f32 := broadcastInDim S1024x64 ![] bcast_S_S1024x64 main_cst_8
  let main_v26 : IVec S1024x64 1 := cmpf .olt main_v24 main_v25
  let main_c_9 : IVec S_ 1 := constantI S_ 1 1#1
  let main_v27 : IVec S_ 1 := (fun x v => Host.reduce IntOp.andi x v reducesTo_S1024x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg2 main_v33

def fn {F : FTy → Type} [FloatOps F] (main_arg0 : FVec F S10000x1024 .f32) (main_arg1 : IVec S160000 32) (main_arg2 : IVec S160000 32) (main_arg3 : FVec F S1024x1024 .f32) (main_arg4 : FVec F S1024 .f32) (main_arg5 : FVec F S1024x1024 .f32) (main_arg6 : FVec F S1024 .f32) (main_arg7 : FVec F S1024x64 .f32) (main_arg8 : FVec F S64 .f32) : IVec S_ 1 :=
  let main_v0 : FVec F S10000x1024 .f32 := Host.absf main_arg0
  let main_cst : FVec F S_ .f32 := constant S_ .f32 0x7F800000#32
  let main_v1 : FVec F S10000x1024 .f32 := broadcastInDim S10000x1024 ![] bcast_S_S10000x1024 main_cst
  let main_v2 : IVec S10000x1024 1 := cmpf .olt main_v0 main_v1
  let main_c : IVec S_ 1 := constantI S_ 1 1#1
  let main_v3 : IVec S_ 1 := (fun x v => Host.reduce IntOp.andi x v reducesTo_S10000x1024_S_d0_1 h_S_) main_v2 main_c
  let main_v4 : FVec F S1024x1024 .f32 := Host.absf main_arg3
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg5
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg1 main_arg2 main_arg6 main_arg7 main_arg8 main_v13 main_v16
-- ==== Kernel.lean ====
abbrev S10000x1024 : Shape := ⟨2, ![10000, 1024]⟩
abbrev S160000 : Shape := ⟨1, ![160000]⟩
abbrev S1024x1024 : Shape := ⟨2, ![1024, 1024]⟩
abbrev S1024 : Shape := ⟨1, ![1024]⟩
abbrev S1024x64 : Shape := ⟨2, ![1024, 64]⟩
abbrev S64 : Shape := ⟨1, ![64]⟩
abbrev S_ : Shape := ⟨0, ![]⟩
abbrev S10000 : Shape := ⟨1, ![10000]⟩
abbrev S160000x1 : Shape := ⟨2, ![160000, 1]⟩
abbrev S10240x10240 : Shape := ⟨2, ![10240, 10240]⟩
abbrev S160000x2 : Shape := ⟨2, ![160000, 2]⟩
abbrev S10240x1024 : Shape := ⟨2, ![10240, 1024]⟩
abbrev S1x1024 : Shape := ⟨2, ![1, 1024]⟩
abbrev S2048x1024 : Shape := ⟨2, ![2048, 1024]⟩
abbrev S1x64 : Shape := ⟨2, ![1, 64]⟩
abbrev S10240x64 : Shape := ⟨2, ![10240, 64]⟩
abbrev S2048x64 : Shape := ⟨2, ![2048, 64]⟩
abbrev S10000x64 : Shape := ⟨2, ![10000, 64]⟩

abbrev nBuf : Space → Nat
  | .hbm => 90
  | .vmem => 39
  | .smem => 0
  | _ => 0

abbrev bufTy : (tb : Table) → Fin (tcTables nBuf tb) → BufTy
  | .hbm, ⟨0, _⟩ => ⟨S10000x1024, .f32⟩
  | .hbm, ⟨1, _⟩ => ⟨S160000, .i32⟩
  | .hbm, ⟨2, _⟩ => ⟨S160000, .i32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x64, .f32⟩
  | .hbm, ⟨8, _⟩ => ⟨S64, .f32⟩
  | .hbm, ⟨9, _⟩ => ⟨S_, .f32⟩
  | .hbm, ⟨10, _⟩ => ⟨S160000, .f32⟩
  | .hbm, ⟨11, _⟩ => ⟨S_, .f32⟩
  | .hbm, ⟨12, _⟩ => ⟨S10000, .f32⟩
  | .hbm, ⟨13, _⟩ => ⟨S160000x1, .i32⟩
  | .hbm, ⟨14, _⟩ => ⟨S10000, .f32⟩
  | .hbm, ⟨15, _⟩ => ⟨S_, .f32⟩
  | .hbm, ⟨16, _⟩ => ⟨S10000, .f32⟩
  | .hbm, ⟨17, _⟩ => ⟨S160000x1, .i32⟩
  | .hbm, ⟨18, _⟩ => ⟨S10000, .f32⟩
  | .hbm, ⟨19, _⟩ => ⟨S_, .f32⟩
  | .hbm, ⟨20, _⟩ => ⟨S_, .f32⟩
  | .hbm, ⟨21, _⟩ => ⟨S10000, .f32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S_, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S_, .i32⟩
  | .hbm, ⟨34, _⟩ => ⟨S160000, .i32⟩
  | .hbm, ⟨35, _⟩ => ⟨S160000, .i1⟩
  | .hbm, ⟨36, _⟩ => ⟨S_, .i32⟩
  | .hbm, ⟨37, _⟩ => ⟨S160000, .i32⟩
  | .hbm, ⟨38, _⟩ => ⟨S160000, .i32⟩
  | .hbm, ⟨39, _⟩ => ⟨S160000, .i32⟩
  | .hbm, ⟨40, _⟩ => ⟨S160000x1, .i32⟩
  | .hbm, ⟨41, _⟩ => ⟨S160000, .f32⟩
  | .hbm, ⟨42, _⟩ => ⟨S_, .i32⟩
  | .hbm, ⟨43, _⟩ => ⟨S160000, .i32⟩
  | .hbm, ⟨44, _⟩ => ⟨S160000, .i1⟩
  | .hbm, ⟨45, _⟩ => ⟨S_, .i32⟩
  | .hbm, ⟨46, _⟩ => ⟨S160000, .i32⟩
  | .hbm, ⟨47, _⟩ => ⟨S160000, .i32⟩
  | .hbm, ⟨48, _⟩ => ⟨S160000, .i32⟩
  | .hbm, ⟨49, _⟩ => ⟨S160000x1, .i32⟩
  | .hbm, ⟨50, _⟩ => ⟨S160000, .f32⟩
  | .hbm, ⟨51, _⟩ => ⟨S160000, .f32⟩
  | .hbm, ⟨52, _⟩ => ⟨S_, .f32⟩
  | .hbm, ⟨53, _⟩ => ⟨S10240x10240, .f32⟩
  | .hbm, ⟨54, _⟩ => ⟨S_, .i32⟩
  | .hbm, ⟨55, _⟩ => ⟨S160000, .i32⟩
  | .hbm, ⟨56, _⟩ => ⟨S160000, .i1⟩
  | .hbm, ⟨57, _⟩ => ⟨S_, .i32⟩
  | .hbm, ⟨58, _⟩ => ⟨S160000, .i32⟩
  | .hbm, ⟨59, _⟩ => ⟨S160000, .i32⟩
  | .hbm, ⟨60, _⟩ => ⟨S160000, .i32⟩
  | .hbm, ⟨61, _⟩ => ⟨S_, .i32⟩
  | .hbm, ⟨62, _⟩ => ⟨S160000, .i32⟩
  | .hbm, ⟨63, _⟩ => ⟨S160000, .i1⟩
  | .hbm, ⟨64, _⟩ => ⟨S_, .i32⟩
  | .hbm, ⟨65, _⟩ => ⟨S160000, .i32⟩
  | .hbm, ⟨66, _⟩ => ⟨S160000, .i32⟩
  | .hbm, ⟨67, _⟩ => ⟨S160000, .i32⟩
  | .hbm, ⟨68, _⟩ => ⟨S160000x1, .i32⟩
  | .hbm, ⟨69, _⟩ => ⟨S160000x1, .i32⟩
  | .hbm, ⟨70, _⟩ => ⟨S160000x2, .i32⟩
  | .hbm, ⟨71, _⟩ => ⟨S10240x10240, .f32⟩
  | .hbm, ⟨72, _⟩ => ⟨S10240x10240, .bf16⟩
  | .hbm, ⟨73, _⟩ => ⟨S_, .i32⟩
  | .hbm, ⟨74, _⟩ => ⟨S_, .f32⟩
  | .hbm, ⟨75, _⟩ => ⟨S10240x1024, .f32⟩
  | .hbm, ⟨76, _⟩ => ⟨S10240x1024, .bf16⟩
  | .hbm, ⟨77, _⟩ => ⟨S1024x1024, .bf16⟩
  | .hbm, ⟨78, _⟩ => ⟨S1024x1024, .bf16⟩
  | .hbm, ⟨79, _⟩ => ⟨S1024x64, .bf16⟩
  | .hbm, ⟨80, _⟩ => ⟨S10240x1024, .bf16⟩
  | .hbm, ⟨81, _⟩ => ⟨S1x1024, .f32⟩
  | .hbm, ⟨82, _⟩ => ⟨S10240x1024, .bf16⟩
  | .hbm, ⟨83, _⟩ => ⟨S10240x1024, .bf16⟩
  | .hbm, ⟨84, _⟩ => ⟨S1x1024, .f32⟩
  | .hbm, ⟨85, _⟩ => ⟨S10240x1024, .bf16⟩
  | .hbm, ⟨86, _⟩ => ⟨S10240x1024, .bf16⟩
  | .hbm, ⟨87, _⟩ => ⟨S1x64, .f32⟩
  | .hbm, ⟨88, _⟩ => ⟨S10240x64, .f32⟩
  | .hbm, ⟨89, _⟩ => ⟨S10000x64, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .bf16⟩
  | .local _ .vmem, ⟨10, _⟩ => ⟨S1x1024, .f32⟩
  | .local _ .vmem, ⟨11, _⟩ => ⟨S2048x1024, .bf16⟩
  | .local _ .vmem, ⟨12, _⟩ => ⟨S2048x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .f32⟩
  | .local _ .vmem, ⟨20, _⟩ => ⟨S2048x1024, .bf16⟩
  | .local _ .vmem, ⟨21, _⟩ => ⟨S2048x1024, .bf16⟩
  | .local _ .vmem, ⟨22, _⟩ => ⟨S1024x1024, .bf16⟩
  | .local _ .vmem, ⟨23, _⟩ => ⟨S1x1024, .f32⟩
  | .local _ .vmem, ⟨24, _⟩ => ⟨S2048x1024, .bf16⟩
  | .local _ .vmem, ⟨25, _⟩ => ⟨S2048x1024, .bf16⟩
  | .local _ .vmem, ⟨26, _⟩ => ⟨S1024x1024, .bf16⟩
  | .local _ .vmem, ⟨27, _⟩ => ⟨S1024x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024x1024, .bf16⟩
  | .local _ .vmem, ⟨32, _⟩ => ⟨S1024x1024, .f32⟩
  | .local _ .vmem, ⟨33, _⟩ => ⟨S2048x1024, .bf16⟩
  | .local _ .vmem, ⟨34, _⟩ => ⟨S2048x1024, .bf16⟩
  | .local _ .vmem, ⟨35, _⟩ => ⟨S1024x64, .bf16⟩
  | .local _ .vmem, ⟨36, _⟩ => ⟨S1x64, .f32⟩
  | .local _ .vmem, ⟨37, _⟩ => ⟨S2048x64, .f32⟩
  | .local _ .vmem, ⟨38, _⟩ => ⟨S2048x64, .f32⟩
  | _, _ => ⟨S10000x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_6 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_c_7 : Ref sig .tc := ⟨.hbm, 42, rfl⟩
abbrev main_v20 : Ref sig .tc := ⟨.hbm, 43, rfl⟩
abbrev main_v21 : Ref sig .tc := ⟨.hbm, 44, rfl⟩
abbrev main_c_8 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_9 : Ref sig .tc := ⟨.hbm, 52, rfl⟩
abbrev main_v28 : Ref sig .tc := ⟨.hbm, 53, rfl⟩
abbrev main_c_10 : Ref sig .tc := ⟨.hbm, 54, rfl⟩
abbrev main_v29 : Ref sig .tc := ⟨.hbm, 55, rfl⟩
abbrev main_v30 : Ref sig .tc := ⟨.hbm, 56, rfl⟩
abbrev main_c_11 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_c_12 : Ref sig .tc := ⟨.hbm, 61, rfl⟩
abbrev main_v34 : Ref sig .tc := ⟨.hbm, 62, rfl⟩
abbrev main_v35 : Ref sig .tc := ⟨.hbm, 63, rfl⟩
abbrev main_c_13 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_14 : Ref sig .tc := ⟨.hbm, 73, rfl⟩
abbrev main_call2_v0 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_scratch0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc4_scratch0 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg3_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨2, ![10, 10], ![false, false]⟩

def k0_cond2 (i : grid0.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![10, 10], ![false, false]⟩

def k2_cond2 (i : grid2.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2048x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![10, 10], ![false, false]⟩

def k4_cond2 (i : grid4.Coords) : BitVec 1 :=
  let arg1 : BitVec 32 := BitVec.ofNat 32 (i 1).val
  let c9_i32 : BitVec 32 := 9#32
  let v13 : BitVec 1 := Scalar.cmpi .eq arg1 c9_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1024x64 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2048x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S_S10240x10240 : S_.BroadcastsInDim S10240x10240 (![] : Fin 0 → Fin S10240x10240.rank)
  concatenates_S160000x1_S160000x1_S160000x2_d1 : Shape.Concatenates [S160000x1, S160000x1] S160000x2 1
  bitsLt_bf16_f32 : FTy.bits .bf16 < FTy.bits .f32
  pads_S10000x1024_S10240x1024_02400_000 : S10000x1024.Pads (![0, 0] : Fin 2 → Nat) ![240, 0] ![0, 0] S10240x1024
  h_S_ : 0 < S_.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  packedbf16_S2048x1024_S2048x1024_0_0 : (Rect.unit (s := S2048x1024) ![0, 0] S2048x1024.size inb_S2048x1024_S2048x1024_0_0).PackedRows (EltTy.packing .bf16)
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  slices_S10240x64_S10000x64_0_0 : S10240x64.Slices ![0, 0] S10000x64
  scatter_S10000_S160000x1_S160000_n_0_0_1_wf : ScatterDims.WF S10000 S160000x1 S160000 [] [0] [0] 1
  gather_S10000_S160000x1_S160000_n_0_n_n_0_1_1_wf : GatherDims.WF S10000 S160000x1 S160000 [] [0] [] [0] [] 1 ![1]
  scatter_S10240x10240_S160000x2_S160000_n_01_01_1_wf : ScatterDims.WF S10240x10240 S160000x2 S160000 [] [0, 1] [0, 1] 1
  dot_S1024x1024_S1024x1024_S1024x1024_1_0_0_1_n_n_wf : DotDims.WF S1024x1024 S1024x1024 S1024x1024 [1] [0] [0] [1] [] []
  dot_S2048x1024_S1024x1024_S2048x1024_1_0_0_1_n_n_wf : DotDims.WF S2048x1024 S1024x1024 S2048x1024 [1] [0] [0] [1] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S10240x10240.size a
  hwx0_0 : ∀ i : grid0.Coords, EltTy.bits .bf16 = 32 ∨ (Rect.block (s := S10240x10240) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S10240x1024.size a
  hwx0_1 : ∀ i : grid0.Coords, EltTy.bits .bf16 = 32 ∨ (Rect.block (s := S10240x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S10240x1024.size a
  hwx0_2 : ∀ i : grid0.Coords, EltTy.bits .bf16 = 32 ∨ (Rect.block (s := S10240x1024) S1024x1024.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S10240x1024.size a
  hwx1_0 : ∀ i : grid1.Coords, EltTy.bits .bf16 = 32 ∨ (Rect.block (s := S10240x1024) S2048x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S10240x1024.size a
  hwx1_3 : ∀ i : grid1.Coords, EltTy.bits .bf16 = 32 ∨ (Rect.block (s := S10240x1024) S2048x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S10240x10240.size a
  hwx2_0 : ∀ i : grid2.Coords, EltTy.bits .bf16 = 32 ∨ (Rect.block (s := S10240x10240) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S10240x1024.size a
  hwx2_1 : ∀ i : grid2.Coords, EltTy.bits .bf16 = 32 ∨ (Rect.block (s := S10240x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S10240x1024.size a
  hwx2_2 : ∀ i : grid2.Coords, EltTy.bits .bf16 = 32 ∨ (Rect.block (s := S10240x1024) S1024x1024.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x1024.size a ≤ S10240x1024.size a
  hwx3_0 : ∀ i : grid3.Coords, EltTy.bits .bf16 = 32 ∨ (Rect.block (s := S10240x1024) S2048x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x1024.size a
  hwx3_1 : ∀ i : grid3.Coords, EltTy.bits .bf16 = 32 ∨ (Rect.block (s := S1024x1024) S1024x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2048x1024.size a ≤ S10240x1024.size a
  hwx3_3 : ∀ i : grid3.Coords, EltTy.bits .bf16 = 32 ∨ (Rect.block (s := S10240x1024) S2048x1024.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S10240x10240.size a
  hwx4_0 : ∀ i : grid4.Coords, EltTy.bits .bf16 = 32 ∨ (Rect.block (s := S10240x10240) S1024x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S10240x1024.size a
  hwx4_1 : ∀ i : grid4.Coords, EltTy.bits .bf16 = 32 ∨ (Rect.block (s := S10240x1024) S1024x1024.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x1024.size a ≤ S10240x1024.size a
  hwx4_2 : ∀ i : grid4.Coords, EltTy.bits .bf16 = 32 ∨ (Rect.block (s := S10240x1024) S1024x1024.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x1024.size a ≤ S10240x1024.size a
  hwx5_0 : ∀ i : grid5.Coords, EltTy.bits .bf16 = 32 ∨ (Rect.block (s := S10240x1024) S2048x1024.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1024x64.size a ≤ S1024x64.size a
  hwx5_1 : ∀ i : grid5.Coords, EltTy.bits .bf16 = 32 ∨ (Rect.block (s := S1024x64) S1024x64.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2048x64.size a ≤ S10240x64.size a
  hwx5_3 : ∀ i : grid5.Coords, EltTy.bits .f32 = 32 ∨ (Rect.block (s := S10240x64) S2048x64.size (cc5_transform_3 i) (hinb5_3 i)).WholeWords (EltTy.packing .f32)

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000_S160000x1_S160000_n_0_n_n_0_1_1 : GatherDims S10000 S160000x1 S160000 where
  offsetDims := []
  collapsedSliceDims := [0]
  operandBatchingDims := []
  startIndicesBatchingDims := []
  startIndexMap := [0]
  indexVectorDim := 1
  sliceSizes := ![1]
  wf := gather_S10000_S160000x1_S160000_n_0_n_n_0_1_1_wf
def scatter_S10240x10240_S160000x2_S160000_n_01_01_1 : ScatterDims S10240x10240 S160000x2 S160000 where
  updateWindowDims := []
  insertedWindowDims := [0, 1]
  scatterDimsToOperandDims := [0, 1]
  indexVectorDim := 1
  wf := scatter_S10240x10240_S160000x2_S160000_n_01_01_1_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_v43) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v49) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v52) S2048x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S1024x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S2048x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v43) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v54) S1024x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v55) S1024x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v55) S2048x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v48) S1024x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S2048x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S10000x1024 : Shape := ⟨2, ![10000, 1024]⟩
abbrev S160000 : Shape := ⟨1, ![160000]⟩
abbrev S1024x1024 : Shape := ⟨2, ![1024, 1024]⟩
abbrev S1024 : Shape := ⟨1, ![1024]⟩
abbrev S1024x64 : Shape := ⟨2, ![1024, 64]⟩
abbrev S64 : Shape := ⟨1, ![64]⟩
abbrev S_ : Shape := ⟨0, ![]⟩
abbrev S10000 : Shape := ⟨1, ![10000]⟩
abbrev S160000x1 : Shape := ⟨2, ![160000, 1]⟩
abbrev S10000x1 : Shape := ⟨2, ![10000, 1]⟩
abbrev S160000x1024 : Shape := ⟨2, ![160000, 1024]⟩
abbrev S1x1024 : Shape := ⟨2, ![1, 1024]⟩
abbrev S10000x64 : Shape := ⟨2, ![10000, 64]⟩
abbrev S1x64 : Shape := ⟨2, ![1, 64]⟩

abbrev nBuf : Space → Nat
  | .hbm => 108
  | .vmem => 0
  | .smem => 0
  | _ => 0

abbrev bufTy : (tb : Table) → Fin (tcTables nBuf tb) → BufTy
  | .hbm, ⟨0, _⟩ => ⟨S10000x1024, .f32⟩
  | .hbm, ⟨1, _⟩ => ⟨S160000, .i32⟩
  | .hbm, ⟨2, _⟩ => ⟨S160000, .i32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x64, .f32⟩
  | .hbm, ⟨8, _⟩ => ⟨S64, .f32⟩
  | .hbm, ⟨9, _⟩ => ⟨S_, .f32⟩
  | .hbm, ⟨10, _⟩ => ⟨S160000, .f32⟩
  | .hbm, ⟨11, _⟩ => ⟨S_, .f32⟩
  | .hbm, ⟨12, _⟩ => ⟨S10000, .f32⟩
  | .hbm, ⟨13, _⟩ => ⟨S160000x1, .i32⟩
  | .hbm, ⟨14, _⟩ => ⟨S10000, .f32⟩
  | .hbm, ⟨15, _⟩ => ⟨S_, .f32⟩
  | .hbm, ⟨16, _⟩ => ⟨S10000, .f32⟩
  | .hbm, ⟨17, _⟩ => ⟨S160000x1, .i32⟩
  | .hbm, ⟨18, _⟩ => ⟨S10000, .f32⟩
  | .hbm, ⟨19, _⟩ => ⟨S_, .f32⟩
  | .hbm, ⟨20, _⟩ => ⟨S_, .f32⟩
  | .hbm, ⟨21, _⟩ => ⟨S10000, .f32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S_, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S10000x1, .f32⟩
  | .hbm, ⟨34, _⟩ => ⟨S10000x1024, .f32⟩
  | .hbm, ⟨35, _⟩ => ⟨S10000x1024, .f32⟩
  | .hbm, ⟨36, _⟩ => ⟨S_, .i32⟩
  | .hbm, ⟨37, _⟩ => ⟨S160000, .i32⟩
  | .hbm, ⟨38, _⟩ => ⟨S160000, .i1⟩
  | .hbm, ⟨39, _⟩ => ⟨S_, .i32⟩
  | .hbm, ⟨40, _⟩ => ⟨S160000, .i32⟩
  | .hbm, ⟨41, _⟩ => ⟨S160000, .i32⟩
  | .hbm, ⟨42, _⟩ => ⟨S160000, .i32⟩
  | .hbm, ⟨43, _⟩ => ⟨S160000x1, .i32⟩
  | .hbm, ⟨44, _⟩ => ⟨S160000x1024, .f32⟩
  | .hbm, ⟨45, _⟩ => ⟨S_, .f32⟩
  | .hbm, ⟨46, _⟩ => ⟨S10000x1024, .f32⟩
  | .hbm, ⟨47, _⟩ => ⟨S160000x1, .i32⟩
  | .hbm, ⟨48, _⟩ => ⟨S10000x1024, .f32⟩
  | .hbm, ⟨49, _⟩ => ⟨S10000x1, .f32⟩
  | .hbm, ⟨50, _⟩ => ⟨S10000x1024, .f32⟩
  | .hbm, ⟨51, _⟩ => ⟨S10000x1024, .f32⟩
  | .hbm, ⟨52, _⟩ => ⟨S10000x1024, .f32⟩
  | .hbm, ⟨53, _⟩ => ⟨S1x1024, .f32⟩
  | .hbm, ⟨54, _⟩ => ⟨S10000x1024, .f32⟩
  | .hbm, ⟨55, _⟩ => ⟨S10000x1024, .f32⟩
  | .hbm, ⟨56, _⟩ => ⟨S_, .f32⟩
  | .hbm, ⟨57, _⟩ => ⟨S10000x1024, .f32⟩
  | .hbm, ⟨58, _⟩ => ⟨S10000x1024, .f32⟩
  | .hbm, ⟨59, _⟩ => ⟨S10000x1, .f32⟩
  | .hbm, ⟨60, _⟩ => ⟨S10000x1024, .f32⟩
  | .hbm, ⟨61, _⟩ => ⟨S10000x1024, .f32⟩
  | .hbm, ⟨62, _⟩ => ⟨S_, .i32⟩
  | .hbm, ⟨63, _⟩ => ⟨S160000, .i32⟩
  | .hbm, ⟨64, _⟩ => ⟨S160000, .i1⟩
  | .hbm, ⟨65, _⟩ => ⟨S_, .i32⟩
  | .hbm, ⟨66, _⟩ => ⟨S160000, .i32⟩
  | .hbm, ⟨67, _⟩ => ⟨S160000, .i32⟩
  | .hbm, ⟨68, _⟩ => ⟨S160000, .i32⟩
  | .hbm, ⟨69, _⟩ => ⟨S160000x1, .i32⟩
  | .hbm, ⟨70, _⟩ => ⟨S160000x1024, .f32⟩
  | .hbm, ⟨71, _⟩ => ⟨S_, .f32⟩
  | .hbm, ⟨72, _⟩ => ⟨S10000x1024, .f32⟩
  | .hbm, ⟨73, _⟩ => ⟨S160000x1, .i32⟩
  | .hbm, ⟨74, _⟩ => ⟨S10000x1024, .f32⟩
  | .hbm, ⟨75, _⟩ => ⟨S10000x1, .f32⟩
  | .hbm, ⟨76, _⟩ => ⟨S10000x1024, .f32⟩
  | .hbm, ⟨77, _⟩ => ⟨S10000x1024, .f32⟩
  | .hbm, ⟨78, _⟩ => ⟨S10000x1024, .f32⟩
  | .hbm, ⟨79, _⟩ => ⟨S1x1024, .f32⟩
  | .hbm, ⟨80, _⟩ => ⟨S10000x1024, .f32⟩
  | .hbm, ⟨81, _⟩ => ⟨S10000x1024, .f32⟩
  | .hbm, ⟨82, _⟩ => ⟨S_, .f32⟩
  | .hbm, ⟨83, _⟩ => ⟨S10000x1024, .f32⟩
  | .hbm, ⟨84, _⟩ => ⟨S10000x1024, .f32⟩
  | .hbm, ⟨85, _⟩ => ⟨S10000x1, .f32⟩
  | .hbm, ⟨86, _⟩ => ⟨S10000x1024, .f32⟩
  | .hbm, ⟨87, _⟩ => ⟨S10000x1024, .f32⟩
  | .hbm, ⟨88, _⟩ => ⟨S_, .i32⟩
  | .hbm, ⟨89, _⟩ => ⟨S160000, .i32⟩
  | .hbm, ⟨90, _⟩ => ⟨S160000, .i1⟩
  | .hbm, ⟨91, _⟩ => ⟨S_, .i32⟩
  | .hbm, ⟨92, _⟩ => ⟨S160000, .i32⟩
  | .hbm, ⟨93, _⟩ => ⟨S160000, .i32⟩
  | .hbm, ⟨94, _⟩ => ⟨S160000, .i32⟩
  | .hbm, ⟨95, _⟩ => ⟨S160000x1, .i32⟩
  | .hbm, ⟨96, _⟩ => ⟨S160000x1024, .f32⟩
  | .hbm, ⟨97, _⟩ => ⟨S_, .f32⟩
  | .hbm, ⟨98, _⟩ => ⟨S10000x1024, .f32⟩
  | .hbm, ⟨99, _⟩ => ⟨S160000x1, .i32⟩
  | .hbm, ⟨100, _⟩ => ⟨S10000x1024, .f32⟩
  | .hbm, ⟨101, _⟩ => ⟨S10000x1, .f32⟩
  | .hbm, ⟨102, _⟩ => ⟨S10000x1024, .f32⟩
  | .hbm, ⟨103, _⟩ => ⟨S10000x1024, .f32⟩
  | .hbm, ⟨104, _⟩ => ⟨S10000x64, .f32⟩
  | .hbm, ⟨105, _⟩ => ⟨S1x64, .f32⟩
  | .hbm, ⟨106, _⟩ => ⟨S10000x64, .f32⟩
  | .hbm, ⟨107, _⟩ => ⟨S10000x64, .f32⟩
  | _, _ => ⟨S10000x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v7 : Ref sig .tc := ⟨.hbm, 22, rfl⟩
abbrev main_cst_3 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_v10 : Ref sig .tc := ⟨.hbm, 29, rfl⟩
abbrev main_cst_5 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_c_8 : Ref sig .tc := ⟨.hbm, 62, rfl⟩
abbrev main_v37 : Ref sig .tc := ⟨.hbm, 63, rfl⟩
abbrev main_v38 : Ref sig .tc := ⟨.hbm, 64, rfl⟩
abbrev main_c_9 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call3_cst : Ref sig .tc := ⟨.hbm, 82, rfl⟩
abbrev main_call3_v0 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_13 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩

abbrev nD : Nat := 1
abbrev τ : Topo := Topo.v7x

variable {F : FTy → Type} [FloatOps F]

class Facts₀ : Prop where
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S10000_S10000x1_0 : S10000.BroadcastsInDim S10000x1 (![0] : Fin 1 → Fin S10000x1.rank)
  bcast_S10000x1_S10000x1024_0_1 : S10000x1.BroadcastsInDim S10000x1024 (![0, 1] : Fin 2 → Fin S10000x1024.rank)
  bcast_S_S10000x1024 : S_.BroadcastsInDim S10000x1024 (![] : Fin 0 → Fin S10000x1024.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  scatter_S10000_S160000x1_S160000_n_0_0_1_wf : ScatterDims.WF S10000 S160000x1 S160000 [] [0] [0] 1
  gather_S10000x1024_S160000x1_S160000x1024_1_0_n_n_0_1_11024_wf : GatherDims.WF S10000x1024 S160000x1 S160000x1024 [1] [0] [] [0] [] 1 ![1, 1024]
  scatter_S10000x1024_S160000x1_S160000x1024_1_0_0_1_wf : ScatterDims.WF S10000x1024 S160000x1 S160000x1024 [1] [0] [0] 1
  dot_S10000x1024_S1024x1024_S10000x1024_1_0_0_1_n_n_wf : DotDims.WF S10000x1024 S1024x1024 S10000x1024 [1] [0] [0] [1] [] []
  dot_S10000x1024_S1024x64_S10000x64_1_0_0_1_n_n_wf : DotDims.WF S10000x1024 S1024x64 S10000x64 [1] [0] [0] [1] [] []

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000x1024_S160000x1_S160000x1024_1_0_n_n_0_1_11024 : GatherDims S10000x1024 S160000x1 S160000x1024 where
  offsetDims := [1]
  collapsedSliceDims := [0]
  operandBatchingDims := []
  startIndicesBatchingDims := []
  startIndexMap := [0]
  indexVectorDim := 1
  sliceSizes := ![1, 1024]
  wf := gather_S10000x1024_S160000x1_S160000x1024_1_0_n_n_0_1_11024_wf
def scatter_S10000x1024_S160000x1_S160000x1024_1_0_0_1 : ScatterDims S10000x1024 S160000x1 S160000x1024 where
  updateWindowDims := [1]
  insertedWindowDims := [0]
  scatterDimsToOperandDims := [0]
  indexVectorDim := 1
  wf := scatter_S10000x1024_S160000x1_S160000x1024_1_0_0_1_wf
def dot_S10000x1024_S1024x1024_S10000x1024_1_0_0_1_n_n : DotDims S10000x1024 S1024x1024 S10000x1024 where
  lhsContracting := [1]
  rhsContracting := [0]
  lhsNonContracting := [0]
  rhsNonContracting := [1]
  lhsBatch := []
  rhsBatch := []
  wf := dot_S10000x1024_S1024x1024_S10000x1024_1_0_0_1_n_n_wf
def dot_S10000x1024_S1024x64_S10000x64_1_0_0_1_n_n : DotDims S10000x1024 S1024x64 S10000x64 where
  lhsContracting := [1]
  rhsContracting := [0]
  lhsNonContracting := [0]
  rhsNonContracting := [1]
  lhsBatch := []
  rhsBatch := []
  wf := dot_S10000x1024_S1024x64_S10000x64_1_0_0_1_n_n_wf

class Facts : Prop extends Facts₀ where

variable [Facts]
-- ==== Proof.LibRegion.lean ====
import Idealize.ShloMosaic.Lib.Pipeline.RegionsLoop
import Idealize.ShloMosaic.Lib.Pipeline.Frame

set_option backward.isDefEq.respectTransparency.types false

noncomputable section

namespace Cert.RegionLib

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg BodyObligation)

variable {nD : Nat} {τ : Topo} {sig : RefSig} {Λ₀ : Labels} {P : Type} [Fintype P] {F : FTy → Type} [FloatOps F]

local notation "𝕄" => MT nD τ sig Unit (Elt F) ℕ (UR sig nD τ) ℕ

abbrev Lz : GSem nD τ sig → Finset Unit := fun _ => ∅
abbrev lvz : GSem nD τ sig → Unit → ℕ := fun _ _ => 0
abbrev Rest (c : Dev nD) : sProp 𝕄 := iprop((∃ r, prngReg c r) ∗ ∃ W, owes (c : Thread nD τ) (0 : CellTallies nD τ sig Unit) W)

variable {cfgs : P → Pipeline.Cfg sig Λ₀} (defs₀ : Defs nD τ sig (Elt F) Λ₀)
  (pdats : (p : P) → (c : Dev nD) → Dat τ (Elt F) Unit ℕ (UR sig nD τ) ℕ (cfgs p) c)

-- What region p's launch needs: entered at the valuation Vin it writes the one array of window wo, leaving val there.
structure RegFacts (p : P) (Vin : Dev nD → Valuation τ sig (Elt F)) (wo : Fin (cfgs p).W)
    (val : (c : Dev nD) → Buf (Elt F) ((c : Thread nD τ).loc (Pipeline.arrRef (cfgs p).spec wo))) : Prop where
  lf : Pipeline.LaunchFacts (nD := nD) (τ := τ) cfgs p
  hbody : ∀ c, BodyObligation (pdats p c) defs₀ Variants.none () Set.univ
  hin : ∀ c, (Pipeline.ΦA (cfgs p).spec c : sProp 𝕄) ⊢ (pdats p c).Φ 0
  hout : ∀ c, (pdats p c).Φ (Fin.last (cfgs p).N) ⊢ (Pipeline.ΦA (cfgs p).spec c : sProp 𝕄)
  hq : ∀ c w, (pdats p c).q w = fullShare := by intros; rfl
  howed : ∀ c t, (pdats p c).owed t = 0 := by intros; rfl
  hrec : ∀ c t, (pdats p c).recorded t = Set.univ := by intros; rfl
  hA : ∀ c w, (pdats p c).A w = Vin c (Pipeline.arrRef (cfgs p).spec w) := by intros; rfl
  hio : ∀ w, w ≠ wo → ((cfgs p).win w).isOut = false := by decide
  hval : ∀ c, val c = (pdats p c).arrAt wo (cfgs p).N

variable {defs₀ pdats}

/-- The region as a segment from Vin to Vin updated at the output array: an input's array stays as entered. -/
def RegFacts.seg {p : P} {Vin : Dev nD → Valuation τ sig (Elt F)} {wo : Fin (cfgs p).W}
    {val : (c : Dev nD) → Buf (Elt F) ((c : Thread nD τ).loc (Pipeline.arrRef (cfgs p).spec wo))} (h : RegFacts defs₀ pdats p Vin wo val) :
    RegionSeg (fun p => (cfgs p).toPCfg (Val := Elt F)) (fun p => (cfgs p).toPCfg_adm) pdats () defs₀ Variants.none Lz lvz p where
  win := h.lf.win.to₀
  block_pos := h.lf.block_pos
  stage_whole := h.lf.stage_whole
  K := PEmpty
  osem k := k.elim
  ho := Pipeline.OwnSemFacts.none _
  hbody c := (h.hbody c).loose
  hwaits := Pipeline.hwaits_of_owed_zero _ _ _ _ Lz lvz p h.howed
  pre c := iprop(StableHlo.held (c : Thread nD τ) (Pipeline.ucRefs τ sig) (Vin c) ∗ Rest c)
  post c := iprop(StableHlo.held (c : Thread nD τ) (Pipeline.ucRefs τ sig)
    (Function.update (Vin c) (Pipeline.arrRef (cfgs p).spec wo) (val c)) ∗ Rest c)
  X c := iprop(∃ r, prngReg c r)
  Y c := iprop(∃ r, prngReg c r)
  Z c := Pipeline.unscopedRest (Ix := Unit) (Name := ℕ) (U := UR sig nD τ) (Lvl := ℕ) (cfgs p).spec c fun b => Vin c b
  hentry c := by
    unfold Pipeline.Dat.owesAt Pipeline.owesWithin Pipeline.Dat.bound
    rw [Pipeline.ownSems0_none, h.howed c, h.hrec c]
    have hsplit := Pipeline.arrays_of_unscopedBufs (p := p) (fun p => (cfgs p).toPCfg (Val := Elt F)) (fun p => (cfgs p).toPCfg_adm) pdats h.lf.win h.lf.arr_whole c
      ((pdats p c).share_full (h.hq c)) (fun b => Vin c b) (h.hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitl [Hp]; · iexact Hp
    iexact Hrest
  hin c := by
    refine .trans ?_ (h.hin c)
    unfold Pipeline.ΦA
    iintro ⟨Hp, -, Hr⟩
    isplitl [Hr]; · iexact Hr
    iexact Hp
  hout c := by
    refine (h.hout c).trans ?_
    rw [Pipeline.ownSems0_none]; unfold Pipeline.ΦA
    iintro ⟨Hr, Hp⟩
    isplitl [Hp]; · iexact Hp
    isplitr; · iempintro
    iexact Hr
  hexit c := by
    unfold Pipeline.Dat.owesAt Pipeline.owesWithin
    rw [h.howed c]
    have hself : Function.update (Vin c) (Pipeline.arrRef (cfgs p).spec wo) (val c) (Pipeline.arrRef (cfgs p).spec wo) = val c :=
      Function.update_self ..
    have hkeep (b : Ref sig .tc) (hb : b ≠ Pipeline.arrRef (cfgs p).spec wo) :
        Function.update (Vin c) (Pipeline.arrRef (cfgs p).spec wo) (val c) b = Vin c b :=
      Function.update_of_ne (StableHlo.devRef_ne_of_ne hb) _ _
    have hjoin := Pipeline.unscopedBufs_of_arrays (p := p) (fun p => (cfgs p).toPCfg (Val := Elt F)) (fun p => (cfgs p).toPCfg_adm) (Ix := Unit) (Name := ℕ) (U := UR sig nD τ) (Lvl := ℕ)
      h.lf.win h.lf.arr_whole c pdats ((pdats p c).share_full (h.hq c))
      (fun b => Vin c b) (fun b => Function.update (Vin c) (Pipeline.arrRef (cfgs p).spec wo) (val c) b)
      ((pdats p c).arrAt · (cfgs p).N)
      (fun w => by
        by_cases e : w = wo
        · subst e; exact (hself.trans (h.hval c)).symm
        · exact ((pdats p c).arrAt_in w (h.hio w e) _).trans ((h.hA c w).trans (hkeep _ fun e' => e (h.lf.win.arr_inj e')).symm))
      fun b hb => hkeep b fun e => hb (Finset.mem_image.mpr ⟨wo, Finset.mem_univ _, e.symm⟩)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

theorem launch_ghost (u : UR sig nD τ) : (ownU u : sProp 𝕄)
    ⊢ |={Set.univ}=> iprop(BI.own (emb₁ u) ∗ bigSep Finset.univ fun _ : Dev nD => (iprop(emp) : sProp 𝕄)) := by
  iintro Hu; imodintro
  isplitl [Hu]
  · iapply (show (ownU u : sProp 𝕄) ⊢ BI.own (emb₁ u) from .rfl)
    iexact Hu
  iapply (show (BI.emp : sProp 𝕄) ⊢ bigSep Finset.univ (fun _ : Dev nD => (BI.emp : sProp 𝕄)) from by rw [BI.bigSep_emp_const])
  iempintro

end Cert.RegionLib

end
-- ==== Proof.K.FrameCondV.lean ====
import proofs.«429552_j8443905704047_1_alg».proof.Proof.Gen.Kernel.Regions
import proofs.«429552_j8443905704047_1_alg».proof.Proof.LibRegion

set_option backward.isDefEq.respectTransparency.types false

noncomputable section

namespace Cert.Kernel.Gen

open Cert.RegionLib
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

variable (m : (ℓ : Loc nD τ sig) → Buf (Elt F) ℓ) (outs : Outs (F := F))
  {pdats : (p : Fin 6) → (c : Dev nD) → Dat τ (Elt F) Unit ℕ (UR sig nD τ) ℕ (cfgs p) c}

-- Given each region's facts, every fair execution terminates with each unscoped buffer at the last valuation.
theorem frame_cond_v (ρ : Dev nD → PrngReg)
    (h0 : RegFacts defs₀ pdats 0 (V7 m) (2 : Fin 3) (outs 8 main_v49)) (h1 : RegFacts defs₀ pdats 1 (V9 m outs) (3 : Fin 4) (outs 10 main_v51))
    (h2 : RegFacts defs₀ pdats 2 (V10 m outs) (2 : Fin 3) (outs 11 main_v52)) (h3 : RegFacts defs₀ pdats 3 (V12 m outs) (3 : Fin 4) (outs 13 main_v54))
    (h4 : RegFacts defs₀ pdats 4 (V13 m outs) (2 : Fin 3) (outs 14 main_v55)) (h5 : RegFacts defs₀ pdats 5 (V15 m outs) (3 : Fin 4) (outs 16 main_v57)) :
    θ_run defs (onTc (τ := τ) (main (F := F))) ⟨m, fun _ => 0, ρ⟩ (fun r => ∀ c : Dev nD, ∀ b ∈ Pipeline.ucRefs τ sig,
      r.2.mem (c, b) = V17 m outs c b) := by
  refine Pipeline.θ_run_regions_kit_dev (pcfgs (F := F)) adm pdats () cellOf_inj emb₁ defs₀ Variants.none Lz lvz m ρ main
    (segs m outs Variants.none Lz lvz (fun _ => Rest) () pdats h0.seg h1.seg h2.seg h3.seg h4.seg h5.seg)
    (fun c Q => by
      rewrite [Seg.run_eq_chain, ← show main (F := F) c = Pipeline.chain
        ((segs m outs Variants.none Lz lvz (fun _ => Rest) () pdats h0.seg h1.seg h2.seg h3.seg h4.seg h5.seg c).map Seg.prog) from main_chain c]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) (launch_ghost _)
    (T₀ := fun c => iprop(StableHlo.held (c : Thread nD τ) (Pipeline.ucRefs τ sig) (V0 m c) ∗ Rest c))
    (Tₙ := fun c => StableHlo.held (c : Thread nD τ) (Pipeline.ucRefs τ sig) (V17 m outs c))
    (hch := fun c => ⟨.rfl, .rfl, .rfl, .rfl, .rfl, .rfl, .rfl, .rfl, .rfl, .rfl, .rfl, .rfl, .rfl, .rfl, .rfl, .rfl, .rfl,
      sep_mono .rfl (by iintro ⟨-, HO⟩; iexact HO)⟩)
    (hinit := Pipeline.initEach Lz lvz fun c => ?_) (QY := fun c s => ∀ b ∈ Pipeline.ucRefs τ sig, s.mem (c, b) = V17 m outs c b)
    (hfin := fun c s' => ?_) (hQ := fun _ h => h)
  · rw [← Pipeline.unscopedBufs_held (Ix := Unit) (Name := ℕ) (U := UR sig nD τ) (Lvl := ℕ) c (V0 m c)]
    iintro ⟨⟨Hb, -, HO, -, Hp, -⟩, -⟩
    imodintro
    isplitl [Hb]; · iexact Hb
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V17 m outs c) s') $$ [Hh HSI]
    · isplitl [Hh] <;> iassumption
    icases Hr with ⟨%h, HSI⟩
    imodintro
    isplitr
    · ipureintro; exact h
    · iexact HSI

end Cert.Kernel.Gen

end
-- ==== Proof.K.Agg0.lean ====
import proofs.«429552_j8443905704047_1_alg».proof.Proof.Gen.Kernel.Launch
import proofs.«429552_j8443905704047_1_alg».proof.Proof.Gen.Kernel.Skeleton
import proofs.«429552_j8443905704047_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

section body
variable {c : Dev nD} {i : grid0.Coords} {a2 a3 a4 : Memref sig .tc .vmem S1024x1024 .bf16} {h2 : a2.IsWhole} {h3 : a3.IsWhole} {h4 : a4.IsWhole}
  {a5 : Memref sig .tc .vmem S1024x1024 .f32} {h5 : a5.IsWhole} {xa xb : Vec F S1024x1024 .bf16} {xs : Vec F S1024x1024 .f32} {E : Set ℕ}

/-- The position on the reduction axis is 0. -/
abbrev isFirst (i : grid0.Coords) : Prop := Scalar.cmpi .ne (Scalar.extui (Scalar.cmpi .eq (BitVec.ofNat 32 (i 1).val) 0#32)) 0#32 = 1#1

theorem hz : (![0, 0] : Fin 2 → Nat) = fun _ => 0 := funext fun a => by fin_cases a <;> rfl

/-- The body of the accumulation regions: the three regions' bodies are this one text. -/
abbrev aggBody := cc0__agg_kernel (F := F)

/-- At the first position of a run the accumulator, whatever it held, is zeroed and then holds the first product; the output buffer is untouched. -/
theorem agg_first {R G W : sProp 𝕄} {T2 T3 : Type} {Y : Vec F S1024x1024 .bf16 → Vec F S1024x1024 .bf16} (hreset : isFirst i) (hstore : ¬k0_cond2 i = 1#1) :
    iprop(iprop(iprop((∃ d, owns c a5 fullShare d) ∗ R) ∗ G) ∗ W ∗ (∃ _d : T2, owns c a2 fullShare xa) ∗ (∃ _d : T3, owns c a3 fullShare xb) ∗ (∃ d, owns c a4 fullShare (Y d)))
      ⊢ wp frame (wpE (defs₀ (F := F)) Variants.none c none) E (aggBody i a2 h2 a3 h3 a4 h4 a5 h5) fun _ =>
        iprop(iprop(iprop(owns c a5 fullShare (k0_pay2 (k0_pay1 (F := F)) xa xb) ∗ R) ∗ G) ∗ W ∗ owns c a2 fullShare xa ∗ owns c a3 fullShare xb ∗ (∃ d, owns c a4 fullShare (Y d))) := by
  simp only [aggBody, cc0__agg_kernel_eq_skeleton]; unfold cc0__agg_kernel_skel owns
  iintro ⟨⟨⟨⟨%ds, %fs, -, Hs⟩, Hr⟩, Hg⟩, Hw, ⟨%_, %fa, %hfa, Ha⟩, ⟨%_, %fb, %hfb, Hb⟩, ⟨%d, %fo, %hfo, Ho⟩⟩
  obtain rfl := h2.eq_unread hfa; obtain rfl := h3.eq_unread hfb; obtain rfl := h4.eq_unread hfo
  sl_exec (disch := first | exact hreset | exact hstore)
  sl_step
  iframe Hr Hg Hw
  isplitl [Hs]
  · iexists _; iframe Hs; ipureintro
    refine (View.read_writes_eq_canon _ _ _ (View.cover_of_tiledL _ S1024x1024.size (by sl_kernel_rfl))).trans ?_
    sl_unfold_words
    rw [View.canon_cons_unit_zero (S := S1024x1024) hz]
    simp only [View.readAt_eq_ld, h2.read_unread, h3.read_unread, View.ld_unit_zero (S := S1024x1024) hz,
      View.readCov_unit_zero (S := S1024x1024) _ hz]
  isplitl [Ha]; · iexists _; iframe Ha; ipureintro; exact h2.read_unread _
  isplitl [Hb]; · iexists _; iframe Hb; ipureintro; exact h3.read_unread _
  iexists d, _; iframe Ho; ipureintro; exact h4.read_unread _

/-- At a middle position the accumulator has the point's product added; the output buffer is untouched. -/
theorem agg_mid {R G W : sProp 𝕄} {T2 T3 : Type} {Y : Vec F S1024x1024 .bf16 → Vec F S1024x1024 .bf16} (hreset : ¬isFirst i) (hstore : ¬k0_cond2 i = 1#1) :
    iprop(iprop(iprop(owns c a5 fullShare xs ∗ R) ∗ G) ∗ W ∗ (∃ _d : T2, owns c a2 fullShare xa) ∗ (∃ _d : T3, owns c a3 fullShare xb) ∗ (∃ d, owns c a4 fullShare (Y d)))
      ⊢ wp frame (wpE (defs₀ (F := F)) Variants.none c none) E (aggBody i a2 h2 a3 h3 a4 h4 a5 h5) fun _ =>
        iprop(iprop(iprop(owns c a5 fullShare (k0_pay2 xs xa xb) ∗ R) ∗ G) ∗ W ∗ owns c a2 fullShare xa ∗ owns c a3 fullShare xb ∗ (∃ d, owns c a4 fullShare (Y d))) := by
  simp only [aggBody, cc0__agg_kernel_eq_skeleton]; unfold cc0__agg_kernel_skel owns
  iintro ⟨⟨⟨⟨%fs, %hfs, Hs⟩, Hr⟩, Hg⟩, Hw, ⟨%_, %fa, %hfa, Ha⟩, ⟨%_, %fb, %hfb, Hb⟩, ⟨%d, %fo, %hfo, Ho⟩⟩
  obtain rfl := h2.eq_unread hfa; obtain rfl := h3.eq_unread hfb; obtain rfl := h4.eq_unread hfo; obtain rfl := h5.eq_unread hfs
  sl_exec (disch := first | exact hreset | exact hstore)
  sl_step
  iframe Hr Hg Hw
  isplitl [Hs]
  · iexists _; iframe Hs; ipureintro
    refine (View.read_writes_eq_canon _ _ _ (View.cover_of_tiledL _ S1024x1024.size (by sl_kernel_rfl))).trans ?_
    sl_unfold_words
    rw [View.canon_unit_zero (S := S1024x1024) hz]
    simp only [View.readAt_eq_ld, h2.read_unread, h3.read_unread, h5.read_unread, View.ld_unit_zero (S := S1024x1024) hz]
  isplitl [Ha]; · iexists _; iframe Ha; ipureintro; exact h2.read_unread _
  isplitl [Hb]; · iexists _; iframe Hb; ipureintro; exact h3.read_unread _
  iexists d, _; iframe Ho; ipureintro; exact h4.read_unread _

/-- At the last position the accumulator has the point's product added, and the sum, rounded, is stored over the whole output buffer. -/
theorem agg_last {R G W : sProp 𝕄} {T2 T3 : Type} {Y : Vec F S1024x1024 .bf16 → Vec F S1024x1024 .bf16} (hreset : ¬isFirst i) (hstore : k0_cond2 i = 1#1) :
    iprop(iprop(iprop(owns c a5 fullShare xs ∗ R) ∗ G) ∗ W ∗ (∃ _d : T2, owns c a2 fullShare xa) ∗ (∃ _d : T3, owns c a3 fullShare xb) ∗ (∃ d, owns c a4 fullShare (Y d)))
      ⊢ wp frame (wpE (defs₀ (F := F)) Variants.none c none) E (aggBody i a2 h2 a3 h3 a4 h4 a5 h5) fun _ =>
        iprop(iprop(iprop(owns c a5 fullShare (k0_pay2 xs xa xb) ∗ R) ∗ G) ∗ W ∗ owns c a2 fullShare xa ∗ owns c a3 fullShare xb ∗ owns c a4 fullShare (k0_pay3 (k0_pay2 xs xa xb))) := by
  simp only [aggBody, cc0__agg_kernel_eq_skeleton]; unfold cc0__agg_kernel_skel owns
  iintro ⟨⟨⟨⟨%fs, %hfs, Hs⟩, Hr⟩, Hg⟩, Hw, ⟨%_, %fa, %hfa, Ha⟩, ⟨%_, %fb, %hfb, Hb⟩, ⟨%d, %fo, -, Ho⟩⟩
  obtain rfl := h2.eq_unread hfa; obtain rfl := h3.eq_unread hfb; obtain rfl := h5.eq_unread hfs
  sl_exec (disch := first | exact hreset | exact hstore)
  sl_step
  iframe Hr Hg Hw
  isplitl [Hs]
  · iexists _; iframe Hs; ipureintro
    refine (View.read_writes_eq_canon _ _ _ (View.cover_of_tiledL _ S1024x1024.size (by sl_kernel_rfl))).trans ?_
    sl_unfold_words
    rw [View.canon_unit_zero (S := S1024x1024) hz]
    simp only [View.readAt_eq_ld, h2.read_unread, h3.read_unread, h5.read_unread, View.ld_unit_zero (S := S1024x1024) hz]
  isplitl [Ha]; · iexists _; iframe Ha; ipureintro; exact h2.read_unread _
  isplitl [Hb]; · iexists _; iframe Hb; ipureintro; exact h3.read_unread _
  iexists _; iframe Ho; ipureintro
  refine (View.read_writes_eq_canon _ _ _ (View.cover_of_tiledL _ S1024x1024.size (by sl_kernel_rfl))).trans ?_
  sl_unfold_words
  rw [View.canon_unit_zero (S := S1024x1024) hz]
  simp only [View.readAt_eq_ld, h2.read_unread, h3.read_unread, h5.read_unread, View.ld_unit_zero (S := S1024x1024) hz,
    View.readCov_unit_zero (S := S1024x1024) _ hz]

/-- The body at a point of a region of this kind, from the region's facts: where its runs start and end, what its invariant holds before the point, how its accumulator moves, and what its output buffer is left at. -/
theorem agg_point {P Q W W' B0 B1 B2 L0 L1 L2 R G : sProp 𝕄} {T2 T3 : Type} {Y : Vec F S1024x1024 .bf16 → Vec F S1024x1024 .bf16}
    {prog : Prog (TpuEff nD τ sig (Elt F) Λ₀ .tc) PUnit} {n : ℕ} {s : Vec F S1024x1024 .f32}
    (hprog : prog = aggBody i a2 h2 a3 h3 a4 h4 a5 h5) (h0 : isFirst i ↔ n % 10 = 0) (h9 : k0_cond2 i = 1#1 ↔ n % 10 = 9) (hW : W' = W)
    (hB0 : B0 = iprop(∃ _d : T2, owns c a2 fullShare xa)) (hB1 : B1 = iprop(∃ _d : T3, owns c a3 fullShare xb)) (hB2 : B2 = iprop(∃ d, owns c a4 fullShare (Y d)))
    (hP0 : P ⊢ iprop(iprop((∃ d, owns c a5 fullShare d) ∗ R) ∗ G)) (hP1 : n % 10 ≠ 0 → P = iprop(iprop(owns c a5 fullShare xs ∗ R) ∗ G))
    (hs0 : n % 10 = 0 → s = k0_pay2 (k0_pay1 (F := F)) xa xb) (hs1 : n % 10 ≠ 0 → s = k0_pay2 xs xa xb)
    (hQ : Q = iprop(iprop(owns c a5 fullShare s ∗ R) ∗ G)) (hL0 : L0 = owns c a2 fullShare xa) (hL1 : L1 = owns c a3 fullShare xb)
    (hi : ¬k0_cond2 i = 1#1 → L2 = iprop(∃ d, owns c a4 fullShare (Y d))) (hl : k0_cond2 i = 1#1 → L2 = owns c a4 fullShare (k0_pay3 s)) :
    iprop(P ∗ W ∗ B0 ∗ B1 ∗ B2) ⊢ wp frame (wpE (defs₀ (F := F)) Variants.none c none) E prog fun _ => iprop(Q ∗ W' ∗ L0 ∗ L1 ∗ L2) := by
  subst hprog hW hB0 hB1 hB2 hQ hL0 hL1
  by_cases hf : n % 10 = 0
  · have hst : ¬k0_cond2 i = 1#1 := fun h => by have := h9.mp h; omega
    rw [hi hst, hs0 hf]
    exact (sep_mono_l hP0).trans (agg_first (h0.mpr hf) hst)
  · have hr : ¬isFirst i := fun h => hf (h0.mp h)
    rw [hP1 hf, hs1 hf]
    by_cases hla : k0_cond2 i = 1#1
    · rw [hl hla, hs1 hf]; exact agg_last hr hla
    · rw [hi hla]; exact agg_mid hr hla

/-- On the 10 x 10 grid point `t` sits at position `t % 10` of its reduction run. -/
theorem first_iff : ∀ t : Fin cfg0.N, isFirst (grid0.coords t) ↔ t.val % 10 = 0 := by decide +kernel
theorem last_iff : ∀ t : Fin cfg0.N, k0_cond2 (grid0.coords t) = 1#1 ↔ t.val % 10 = 9 := by decide +kernel
theorem out_idle : ∀ t : Fin cfg0.N, ¬k0_cond2 (grid0.coords t) = 1#1 → cfg0.idle 2 (grid0.coords t) = true := by decide +kernel
theorem out_kept : ∀ t : Fin cfg0.N, ¬k0_cond2 (grid0.coords t) = 1#1 → (cfg0.win 2).flush t = false := by decide +kernel
theorem out_live : ∀ t : Fin cfg0.N, k0_cond2 (grid0.coords t) = 1#1 → cfg0.idle 2 (grid0.coords t) = false := by decide +kernel

end body

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev scM0_0 : Memref sig .tc .vmem S1024x1024 .f32 := Memref.whole cc0_scratch0

/-- The frame of the region's invariant around the accumulator's assertion `P`. -/
abbrev inv0 (c : Dev nD) (P : sProp 𝕄) : sProp 𝕄 := iprop(iprop(P ∗ Pipeline.scopedRestBut spec0 c [cc0_scratch0]) ∗ (∃ r, prngReg c r))

theorem PhiA0_eq (c : Dev nD) : (Pipeline.ΦA spec0 c : sProp 𝕄) = inv0 c iprop(∃ d, owns c scM0_0 fullShare d) := by
  unfold Pipeline.ΦA; rw [scopedRest0_split]; simp only [scM0_0, owns_whole]; rfl

/-- What the accumulator holds after point `n`: the point's product, added to zero at the first position of a run and to what the point before left elsewhere. -/
def acc0 (c : Dev nD) : (n : ℕ) → n < cfg0.N → Vec F S1024x1024 .f32
  | 0, hn => k0_pay2 (k0_pay1 (F := F)) (iblk0 V c 0 ⟨0, hn⟩) (iblk0 V c 1 ⟨0, hn⟩)
  | n + 1, hn =>
    if (n + 1) % 10 = 0 then k0_pay2 (k0_pay1 (F := F)) (iblk0 V c 0 ⟨n + 1, hn⟩) (iblk0 V c 1 ⟨n + 1, hn⟩)
    else k0_pay2 (acc0 c n (Nat.lt_of_succ_lt hn)) (iblk0 V c 0 ⟨n + 1, hn⟩) (iblk0 V c 1 ⟨n + 1, hn⟩)

theorem acc0_first (c : Dev nD) (t : Fin cfg0.N) (h : t.val % 10 = 0) :
    acc0 V c t.val t.isLt = k0_pay2 (k0_pay1 (F := F)) (iblk0 V c 0 t) (iblk0 V c 1 t) := by
  obtain ⟨_ | n, hn⟩ := t
  exacts [rfl, if_pos h]

theorem acc0_next (c : Dev nD) (t : Fin cfg0.N) (h : t.val % 10 ≠ 0) :
    acc0 V c t.val t.isLt = k0_pay2 (acc0 V c (t.val - 1) (Nat.lt_of_le_of_lt (Nat.sub_le _ _) t.isLt)) (iblk0 V c 0 t) (iblk0 V c 1 t) := by
  obtain ⟨_ | n, hn⟩ := t
  exacts [absurd (Nat.zero_mod _) h, if_neg h]

/-- The invariant before position `n`: what the region is handed before the first point, afterwards the accumulator at what the point before left. -/
def PhiS0 (c : Dev nD) (n : ℕ) (h : n ≤ cfg0.N) : sProp 𝕄 :=
  if hn : n = 0 then Pipeline.ΦA spec0 c else inv0 c (owns c scM0_0 fullShare (acc0 V c (n - 1) (by omega)))

/-- Before any point the invariant yields the accumulator at some contents. -/
theorem PhiS0_any (c : Dev nD) (n : ℕ) (h : n ≤ cfg0.N) :
    PhiS0 V c n h ⊢ inv0 c iprop(∃ d, owns c scM0_0 fullShare d) := by
  unfold PhiS0; split
  · exact (PhiA0_eq c).le
  · unfold inv0
    iintro ⟨⟨Hs, Hr⟩, Hg⟩
    iframe Hr Hg
    iexists _; iexact Hs

/-- The region's proof data: each input keeps its block, the output holds the accumulator rounded, the invariant is `PhiS0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem after0_2 (c : Dev nD) (t : Fin cfg0.N) (h : t.val % 10 = 9) : (dat0 V c).after 2 t = k0_pay3 (acc0 V c t.val t.isLt) := rfl

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  exact agg_point (h2 := hstage0_0 _) (h3 := hstage0_1 _) (h4 := hstage0_2 _) (h5 := Memref.isWhole_whole _) rfl (first_iff t) (last_iff t) rfl (by simp only [before0_0]; rfl) (by simp only [before0_1]; rfl) rfl
    (PhiS0_any V c t.val (Nat.le_of_lt t.isLt)) (fun h => by show PhiS0 V c t.val (Nat.le_of_lt t.isLt) = _; unfold PhiS0; exact dif_neg fun e => h (by rw [e])) (acc0_first V c t) (acc0_next V c t) rfl rfl rfl
    (fun h => Dat.leavesExact_idle (dat0 V c) 2 t (out_idle t h) (out_kept t h))
    (fun h => by rw [show cfg0.idle 2 (cfg0.grid.coords t) = false from out_live t h]; rfl)

theorem hin0 (c : Dev nD) : (Pipeline.ΦA spec0 c : sProp 𝕄) ⊢ (dat0 V c).Φ 0 := Idealize.SL.BI.Entails.refl _

/-- After the last point the accumulator's named contents are forgotten. -/
theorem hout0 (c : Dev nD) : (dat0 V c).Φ (Fin.last cfg0.N) ⊢ (Pipeline.ΦA spec0 c : sProp 𝕄) := by
  rw [PhiA0_eq]; exact PhiS0_any V c cfg0.N (Nat.le_refl _)

end Cert.Kernel.Hand
end
-- ==== Proof.K.Proj1.lean ====
import proofs.«429552_j8443905704047_1_alg».proof.Proof.Gen.Kernel.Launch
import proofs.«429552_j8443905704047_1_alg».proof.Proof.Gen.Kernel.Skeleton
import proofs.«429552_j8443905704047_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b)) (c : Dev nD)

/-- Window `w`'s block at grid point `t`: the part of its array, as the region finds it, that the window's index map selects there. -/
def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

theorem zeros1 : (![0, 0] : Fin 2 → Nat) = fun _ => 0 := funext fun a => by fin_cases a <;> rfl

/-- What the body leaves in the output's buffer: the layer's value at the three input blocks. -/
def out1_3 (x0 : Vec F S2048x1024 .bf16) (x1 : Vec F S1024x1024 .bf16) (x2 : Vec F S1x1024 .f32) : Vec F S2048x1024 .bf16 :=
  k1_pay1 x0 x1 x2

theorem out1_3_eq (x0 : Vec F S2048x1024 .bf16) (x1 : Vec F S1024x1024 .bf16) (x2 : Vec F S1x1024 .f32) : out1_3 x0 x1 x2 = k1_pay1 x0 x1 x2 := rfl

/-- Any body of this form, at any shapes: three loads of whole buffers that change nothing, a fourth that is dropped, and one store of `pay` of the three over the whole output buffer. Stated in the shape of the body obligation, beside a frame `P ∗ Q`. -/
theorem sound_whole (S0 S1 S2 S3 : Shape) (e0 e1 e2 e3 : EltTy) (E : Set ℕ) (pay : Vec F S0 e0 → Vec F S1 e1 → Vec F S2 e2 → Vec F S3 e3)
    (arg1 : Memref sig .tc .vmem S0 e0) (arg2 : Memref sig .tc .vmem S1 e1) (arg3 : Memref sig .tc .vmem S2 e2) (arg4 : Memref sig .tc .vmem S3 e3)
    {o0 o1 o2 o3} (z0 : o0 = fun _ => 0) (z1 : o1 = fun _ => 0) (z2 : o2 = fun _ => 0) (z3 : o3 = fun _ => 0) (i0 i1 i2 i3) (l0 l1 l2 l3 st)
    {D0 D1 D2 D3 : Type} {g0 : D0 → Vec F S0 e0} {g1 : D1 → Vec F S1 e1} {g2 : D2 → Vec F S2 e2} {g3 : D3 → Vec F S3 e3}
    {x0 x1 x2} (h0 : ∀ d, g0 d = x0) (h1 : ∀ d, g1 d = x1) (h2 : ∀ d, g2 d = x2) (P Q : sProp 𝕄) :
    iprop(P ∗ Q ∗ (∃ d, owns (c : Thread nD τ) arg1 fullShare (g0 d)) ∗ (∃ d, owns (c : Thread nD τ) arg2 fullShare (g1 d))
        ∗ (∃ d, owns (c : Thread nD τ) arg3 fullShare (g2 d)) ∗ (∃ d, owns (c : Thread nD τ) arg4 fullShare (g3 d)))
      ⊢ wp frame (wpE (defs₀ (F := F)) Variants.none c none) E
        (do let v0 ← Prog.lift (.load arg1 (Rect.unit o0 S0.size i0).toLoadRect l0)
            let v1 ← Prog.lift (.load arg2 (Rect.unit o1 S1.size i1).toLoadRect l1)
            let v2 ← Prog.lift (.load arg3 (Rect.unit o2 S2.size i2).toLoadRect l2)
            let _ ← Prog.lift (.load arg4 (Rect.unit o3 S3.size i3).toLoadRect l3)
            Prog.lift (.store arg4 (Rect.unit o3 S3.size i3) (pay v0 v1 v2) Finset.univ st (.inl rfl))
            pure ⟨⟩ : Prog (TpuEff nD τ sig (Elt F) Λ₀ .tc) PUnit) fun _ =>
        iprop(P ∗ Q ∗ owns (c : Thread nD τ) arg1 fullShare x0 ∗ owns (c : Thread nD τ) arg2 fullShare x1
          ∗ owns (c : Thread nD τ) arg3 fullShare x2 ∗ owns (c : Thread nD τ) arg4 fullShare (pay x0 x1 x2)) := by
  simp only [h0, h1, h2]; unfold owns
  iintro ⟨HP, HQ, ⟨%_, %f0, %hf0, H0⟩, ⟨%_, %f1, %hf1, H1⟩, ⟨%_, %f2, %hf2, H2⟩, ⟨%_, %f3, -, H3⟩⟩
  subst hf0 hf1 hf2
  sl_exec
  sl_step
  iframe
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact (View.read_writes_eq_canon _ _ _ fun y => ⟨_, List.mem_singleton_self _, View.mem_set_unit_zero z3 i3 y⟩).trans <|
    (View.canon_unit_zero z3 _ _).trans <| congr (congr (congrArg pay (View.ld_unit_zero z0 _ _)) (View.ld_unit_zero z1 _ _)) (View.ld_unit_zero z2 _ _)

/-- The region's proof data: the arrays as the region finds them; the body leaves each input at its block and the output at `out1_3` of the three blocks. -/
def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (w : Fin cfg1.W) : (dat1 V c).A w = V c (Pipeline.arrRef spec1 w) := rfl

theorem after1_3 (t : Fin cfg1.N) : (dat1 V c).after 3 t = out1_3 (iblk1 V c 0 t) (iblk1 V c 1 t) (iblk1 V c 2 t) := by
  dsimp only [dat1]

/-- The body leaves every input as it found it, so at each grid point an input's buffer holds that point's block. -/
theorem before1_0 (t d) : (dat1 V c).before 0 t d = iblk1 V c 0 t :=
  ((dat1 V c).before_in_eq_fetched 0 rfl (fun _ => rfl) (fun _ _ _ => rfl) (fun _ => rfl) t d).trans rfl
theorem before1_1 (t d) : (dat1 V c).before 1 t d = iblk1 V c 1 t :=
  ((dat1 V c).before_in_eq_fetched 1 rfl (fun _ => rfl) (fun _ _ _ => rfl) (fun _ => rfl) t d).trans rfl
theorem before1_2 (t d) : (dat1 V c).before 2 t d = iblk1 V c 2 t :=
  ((dat1 V c).before_in_eq_fetched 2 rfl (fun _ => rfl) (fun _ _ _ => rfl) (fun _ => rfl) t d).trans rfl

theorem body_obligation1 : BodyObligation (dat1 (F := F) V c) (defs₀ (F := F)) Variants.none () Set.univ := fun t => by
  rw [bigSep_W1, bigSep_W1, after1_3]
  sl_whnfR [defs₀, Defs.onTc]
  rw [cc1_kernel_eq_skeleton]; unfold cc1_kernel_skel
  exact sound_whole c S2048x1024 S1024x1024 S1x1024 S2048x1024 .bf16 .bf16 .f32 .bf16 Set.univ k1_pay1 _ _ _ _ zeros1 zeros1 zeros1 zeros1 _ _ _ _ _ _ _ _ _ (before1_0 V c t) (before1_1 V c t) (before1_2 V c t) _ _

theorem hin1 : (Pipeline.ΦA spec1 c : sProp 𝕄) ⊢ (dat1 V c).Φ 0 := .rfl
theorem hout1 : (dat1 V c).Φ (Fin.last cfg1.N) ⊢ (Pipeline.ΦA spec1 c : sProp 𝕄) := .rfl

end Cert.Kernel.Hand
-- ==== Proof.K.Agg2.lean ====
import proofs.«429552_j8443905704047_1_alg».proof.Proof.K.Agg0
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2_0 : Memref sig .tc .vmem S1024x1024 .f32 := Memref.whole cc2_scratch0

/-- The frame of the region's invariant around the accumulator's assertion `P`. -/
abbrev inv2 (c : Dev nD) (P : sProp 𝕄) : sProp 𝕄 := iprop(iprop(P ∗ Pipeline.scopedRestBut spec2 c [cc2_scratch0]) ∗ (∃ r, prngReg c r))

theorem PhiA2_eq (c : Dev nD) : (Pipeline.ΦA spec2 c : sProp 𝕄) = inv2 c iprop(∃ d, owns c scM2_0 fullShare d) := by
  unfold Pipeline.ΦA; rw [scopedRest2_split]; simp only [scM2_0, owns_whole]; rfl

/-- What the accumulator holds after point `n`: the point's product, added to zero at the first position of a run and to what the point before left elsewhere. -/
def acc2 (c : Dev nD) : (n : ℕ) → n < cfg2.N → Vec F S1024x1024 .f32
  | 0, hn => k2_pay2 (k2_pay1 (F := F)) (iblk2 V c 0 ⟨0, hn⟩) (iblk2 V c 1 ⟨0, hn⟩)
  | n + 1, hn =>
    if (n + 1) % 10 = 0 then k2_pay2 (k2_pay1 (F := F)) (iblk2 V c 0 ⟨n + 1, hn⟩) (iblk2 V c 1 ⟨n + 1, hn⟩)
    else k2_pay2 (acc2 c n (Nat.lt_of_succ_lt hn)) (iblk2 V c 0 ⟨n + 1, hn⟩) (iblk2 V c 1 ⟨n + 1, hn⟩)

theorem acc2_first (c : Dev nD) (t : Fin cfg2.N) (h : t.val % 10 = 0) :
    acc2 V c t.val t.isLt = k2_pay2 (k2_pay1 (F := F)) (iblk2 V c 0 t) (iblk2 V c 1 t) := by
  obtain ⟨_ | n, hn⟩ := t
  exacts [rfl, if_pos h]

theorem acc2_next (c : Dev nD) (t : Fin cfg2.N) (h : t.val % 10 ≠ 0) :
    acc2 V c t.val t.isLt = k2_pay2 (acc2 V c (t.val - 1) (Nat.lt_of_le_of_lt (Nat.sub_le _ _) t.isLt)) (iblk2 V c 0 t) (iblk2 V c 1 t) := by
  obtain ⟨_ | n, hn⟩ := t
  exacts [absurd (Nat.zero_mod _) h, if_neg h]

/-- The invariant before position `n`: what the region is handed before the first point, afterwards the accumulator at what the point before left. -/
def PhiS2 (c : Dev nD) (n : ℕ) (h : n ≤ cfg2.N) : sProp 𝕄 :=
  if hn : n = 0 then Pipeline.ΦA spec2 c else inv2 c (owns c scM2_0 fullShare (acc2 V c (n - 1) (by omega)))

/-- Before any point the invariant yields the accumulator at some contents. -/
theorem PhiS2_any (c : Dev nD) (n : ℕ) (h : n ≤ cfg2.N) :
    PhiS2 V c n h ⊢ inv2 c iprop(∃ d, owns c scM2_0 fullShare d) := by
  unfold PhiS2; split
  · exact (PhiA2_eq c).le
  · unfold inv2
    iintro ⟨⟨Hs, Hr⟩, Hg⟩
    iframe Hr Hg
    iexists _; iexact Hs

/-- The region's proof data: each input keeps its block, the output holds the accumulator rounded, the invariant is `PhiS2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem after2_2 (c : Dev nD) (t : Fin cfg2.N) (h : t.val % 10 = 9) : (dat2 V c).after 2 t = k2_pay3 (acc2 V c t.val t.isLt) := rfl

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  exact agg_point (h2 := hstage2_0 _) (h3 := hstage2_1 _) (h4 := hstage2_2 _) (h5 := Memref.isWhole_whole _) rfl (first_iff t) (last_iff t) rfl (by simp only [before2_0]; rfl) (by simp only [before2_1]; rfl) rfl
    (PhiS2_any V c t.val (Nat.le_of_lt t.isLt)) (fun h => by show PhiS2 V c t.val (Nat.le_of_lt t.isLt) = _; unfold PhiS2; exact dif_neg fun e => h (by rw [e])) (acc2_first V c t) (acc2_next V c t) rfl rfl rfl
    (fun h => Dat.leavesExact_idle (dat2 V c) 2 t (out_idle t h) (out_kept t h))
    (fun h => by rw [show cfg2.idle 2 (cfg2.grid.coords t) = false from out_live t h]; rfl)

theorem hin2 (c : Dev nD) : (Pipeline.ΦA spec2 c : sProp 𝕄) ⊢ (dat2 V c).Φ 0 := Idealize.SL.BI.Entails.refl _

/-- After the last point the accumulator's named contents are forgotten. -/
theorem hout2 (c : Dev nD) : (dat2 V c).Φ (Fin.last cfg2.N) ⊢ (Pipeline.ΦA spec2 c : sProp 𝕄) := by
  rw [PhiA2_eq]; exact PhiS2_any V c cfg2.N (Nat.le_refl _)

end Cert.Kernel.Hand
end
-- ==== Proof.K.Proj3.lean ====
import proofs.«429552_j8443905704047_1_alg».proof.Proof.K.Proj1
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b)) (c : Dev nD)

/-- Window `w`'s block at grid point `t`: the part of its array, as the region finds it, that the window's index map selects there. -/
def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the body leaves in the output's buffer: the layer's value at the three input blocks. -/
def out3_3 (x0 : Vec F S2048x1024 .bf16) (x1 : Vec F S1024x1024 .bf16) (x2 : Vec F S1x1024 .f32) : Vec F S2048x1024 .bf16 :=
  k3_pay1 x0 x1 x2

theorem out3_3_eq (x0 : Vec F S2048x1024 .bf16) (x1 : Vec F S1024x1024 .bf16) (x2 : Vec F S1x1024 .f32) : out3_3 x0 x1 x2 = k3_pay1 x0 x1 x2 := rfl

/-- The region's proof data: the arrays as the region finds them; the body leaves each input at its block and the output at `out3_3` of the three blocks. -/
def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (w : Fin cfg3.W) : (dat3 V c).A w = V c (Pipeline.arrRef spec3 w) := rfl

theorem after3_3 (t : Fin cfg3.N) : (dat3 V c).after 3 t = out3_3 (iblk3 V c 0 t) (iblk3 V c 1 t) (iblk3 V c 2 t) := by
  dsimp only [dat3]

/-- The body leaves every input as it found it, so at each grid point an input's buffer holds that point's block. -/
theorem before3_0 (t d) : (dat3 V c).before 0 t d = iblk3 V c 0 t :=
  ((dat3 V c).before_in_eq_fetched 0 rfl (fun _ => rfl) (fun _ _ _ => rfl) (fun _ => rfl) t d).trans rfl
theorem before3_1 (t d) : (dat3 V c).before 1 t d = iblk3 V c 1 t :=
  ((dat3 V c).before_in_eq_fetched 1 rfl (fun _ => rfl) (fun _ _ _ => rfl) (fun _ => rfl) t d).trans rfl
theorem before3_2 (t d) : (dat3 V c).before 2 t d = iblk3 V c 2 t :=
  ((dat3 V c).before_in_eq_fetched 2 rfl (fun _ => rfl) (fun _ _ _ => rfl) (fun _ => rfl) t d).trans rfl

theorem body_obligation3 : BodyObligation (dat3 (F := F) V c) (defs₀ (F := F)) Variants.none () Set.univ := fun t => by
  rw [bigSep_W3, bigSep_W3, after3_3]
  sl_whnfR [defs₀, Defs.onTc]
  rw [cc3_kernel_eq_skeleton]; unfold cc3_kernel_skel
  exact sound_whole c S2048x1024 S1024x1024 S1x1024 S2048x1024 .bf16 .bf16 .f32 .bf16 Set.univ k3_pay1 _ _ _ _ zeros1 zeros1 zeros1 zeros1 _ _ _ _ _ _ _ _ _ (before3_0 V c t) (before3_1 V c t) (before3_2 V c t) _ _

theorem hin3 : (Pipeline.ΦA spec3 c : sProp 𝕄) ⊢ (dat3 V c).Φ 0 := .rfl
theorem hout3 : (dat3 V c).Φ (Fin.last cfg3.N) ⊢ (Pipeline.ΦA spec3 c : sProp 𝕄) := .rfl

end Cert.Kernel.Hand
-- ==== Proof.K.Agg4.lean ====
import proofs.«429552_j8443905704047_1_alg».proof.Proof.K.Agg0
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4_0 : Memref sig .tc .vmem S1024x1024 .f32 := Memref.whole cc4_scratch0

/-- The frame of the region's invariant around the accumulator's assertion `P`. -/
abbrev inv4 (c : Dev nD) (P : sProp 𝕄) : sProp 𝕄 := iprop(iprop(P ∗ Pipeline.scopedRestBut spec4 c [cc4_scratch0]) ∗ (∃ r, prngReg c r))

theorem PhiA4_eq (c : Dev nD) : (Pipeline.ΦA spec4 c : sProp 𝕄) = inv4 c iprop(∃ d, owns c scM4_0 fullShare d) := by
  unfold Pipeline.ΦA; rw [scopedRest4_split]; simp only [scM4_0, owns_whole]; rfl

/-- What the accumulator holds after point `n`: the point's product, added to zero at the first position of a run and to what the point before left elsewhere. -/
def acc4 (c : Dev nD) : (n : ℕ) → n < cfg4.N → Vec F S1024x1024 .f32
  | 0, hn => k4_pay2 (k4_pay1 (F := F)) (iblk4 V c 0 ⟨0, hn⟩) (iblk4 V c 1 ⟨0, hn⟩)
  | n + 1, hn =>
    if (n + 1) % 10 = 0 then k4_pay2 (k4_pay1 (F := F)) (iblk4 V c 0 ⟨n + 1, hn⟩) (iblk4 V c 1 ⟨n + 1, hn⟩)
    else k4_pay2 (acc4 c n (Nat.lt_of_succ_lt hn)) (iblk4 V c 0 ⟨n + 1, hn⟩) (iblk4 V c 1 ⟨n + 1, hn⟩)

theorem acc4_first (c : Dev nD) (t : Fin cfg4.N) (h : t.val % 10 = 0) :
    acc4 V c t.val t.isLt = k4_pay2 (k4_pay1 (F := F)) (iblk4 V c 0 t) (iblk4 V c 1 t) := by
  obtain ⟨_ | n, hn⟩ := t
  exacts [rfl, if_pos h]

theorem acc4_next (c : Dev nD) (t : Fin cfg4.N) (h : t.val % 10 ≠ 0) :
    acc4 V c t.val t.isLt = k4_pay2 (acc4 V c (t.val - 1) (Nat.lt_of_le_of_lt (Nat.sub_le _ _) t.isLt)) (iblk4 V c 0 t) (iblk4 V c 1 t) := by
  obtain ⟨_ | n, hn⟩ := t
  exacts [absurd (Nat.zero_mod _) h, if_neg h]

/-- The invariant before position `n`: what the region is handed before the first point, afterwards the accumulator at what the point before left. -/
def PhiS4 (c : Dev nD) (n : ℕ) (h : n ≤ cfg4.N) : sProp 𝕄 :=
  if hn : n = 0 then Pipeline.ΦA spec4 c else inv4 c (owns c scM4_0 fullShare (acc4 V c (n - 1) (by omega)))

/-- Before any point the invariant yields the accumulator at some contents. -/
theorem PhiS4_any (c : Dev nD) (n : ℕ) (h : n ≤ cfg4.N) :
    PhiS4 V c n h ⊢ inv4 c iprop(∃ d, owns c scM4_0 fullShare d) := by
  unfold PhiS4; split
  · exact (PhiA4_eq c).le
  · unfold inv4
    iintro ⟨⟨Hs, Hr⟩, Hg⟩
    iframe Hr Hg
    iexists _; iexact Hs

/-- The region's proof data: each input keeps its block, the output holds the accumulator rounded, the invariant is `PhiS4`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay3 (acc4 V c t.val t.isLt)
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem after4_2 (c : Dev nD) (t : Fin cfg4.N) (h : t.val % 10 = 9) : (dat4 V c).after 2 t = k4_pay3 (acc4 V c t.val t.isLt) := rfl

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

theorem body_obligation4 (c : Dev nD) : BodyObligation (dat4 (F := F) V c) (defs₀ (F := F)) Variants.none () Set.univ := fun t => by
  rw [bigSep_W4, bigSep_W4]
  exact agg_point (h2 := hstage4_0 _) (h3 := hstage4_1 _) (h4 := hstage4_2 _) (h5 := Memref.isWhole_whole _) rfl (first_iff t) (last_iff t) rfl (by simp only [before4_0]; rfl) (by simp only [before4_1]; rfl) rfl
    (PhiS4_any V c t.val (Nat.le_of_lt t.isLt)) (fun h => by show PhiS4 V c t.val (Nat.le_of_lt t.isLt) = _; unfold PhiS4; exact dif_neg fun e => h (by rw [e])) (acc4_first V c t) (acc4_next V c t) rfl rfl rfl
    (fun h => Dat.leavesExact_idle (dat4 V c) 2 t (out_idle t h) (out_kept t h))
    (fun h => by rw [show cfg4.idle 2 (cfg4.grid.coords t) = false from out_live t h]; rfl)

theorem hin4 (c : Dev nD) : (Pipeline.ΦA spec4 c : sProp 𝕄) ⊢ (dat4 V c).Φ 0 := Idealize.SL.BI.Entails.refl _

/-- After the last point the accumulator's named contents are forgotten. -/
theorem hout4 (c : Dev nD) : (dat4 V c).Φ (Fin.last cfg4.N) ⊢ (Pipeline.ΦA spec4 c : sProp 𝕄) := by
  rw [PhiA4_eq]; exact PhiS4_any V c cfg4.N (Nat.le_refl _)

end Cert.Kernel.Hand
end
-- ==== Proof.K.Proj5.lean ====
import proofs.«429552_j8443905704047_1_alg».proof.Proof.K.Proj1
noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b)) (c : Dev nD)

/-- Window `w`'s block at grid point `t`: the part of its array, as the region finds it, that the window's index map selects there. -/
def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the body leaves in the output's buffer: the layer's value at the three input blocks. -/
def out5_3 (x0 : Vec F S2048x1024 .bf16) (x1 : Vec F S1024x64 .bf16) (x2 : Vec F S1x64 .f32) : Vec F S2048x64 .f32 :=
  k5_pay1 x0 x1 x2

theorem out5_3_eq (x0 : Vec F S2048x1024 .bf16) (x1 : Vec F S1024x64 .bf16) (x2 : Vec F S1x64 .f32) : out5_3 x0 x1 x2 = k5_pay1 x0 x1 x2 := rfl

/-- The region's proof data: the arrays as the region finds them; the body leaves each input at its block and the output at `out5_3` of the three blocks. -/
def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (w : Fin cfg5.W) : (dat5 V c).A w = V c (Pipeline.arrRef spec5 w) := rfl

theorem after5_3 (t : Fin cfg5.N) : (dat5 V c).after 3 t = out5_3 (iblk5 V c 0 t) (iblk5 V c 1 t) (iblk5 V c 2 t) := by
  dsimp only [dat5]

/-- The body leaves every input as it found it, so at each grid point an input's buffer holds that point's block. -/
theorem before5_0 (t d) : (dat5 V c).before 0 t d = iblk5 V c 0 t :=
  ((dat5 V c).before_in_eq_fetched 0 rfl (fun _ => rfl) (fun _ _ _ => rfl) (fun _ => rfl) t d).trans rfl
theorem before5_1 (t d) : (dat5 V c).before 1 t d = iblk5 V c 1 t :=
  ((dat5 V c).before_in_eq_fetched 1 rfl (fun _ => rfl) (fun _ _ _ => rfl) (fun _ => rfl) t d).trans rfl
theorem before5_2 (t d) : (dat5 V c).before 2 t d = iblk5 V c 2 t :=
  ((dat5 V c).before_in_eq_fetched 2 rfl (fun _ => rfl) (fun _ _ _ => rfl) (fun _ => rfl) t d).trans rfl

theorem body_obligation5 : BodyObligation (dat5 (F := F) V c) (defs₀ (F := F)) Variants.none () Set.univ := fun t => by
  rw [bigSep_W5, bigSep_W5, after5_3]
  sl_whnfR [defs₀, Defs.onTc]
  rw [cc5_kernel_eq_skeleton]; unfold cc5_kernel_skel
  exact sound_whole c S2048x1024 S1024x64 S1x64 S2048x64 .bf16 .bf16 .f32 .f32 Set.univ k5_pay1 _ _ _ _ zeros1 zeros1 zeros1 zeros1 _ _ _ _ _ _ _ _ _ (before5_0 V c t) (before5_1 V c t) (before5_2 V c t) _ _

theorem hin5 : (Pipeline.ΦA spec5 c : sProp 𝕄) ⊢ (dat5 V c).Φ 0 := .rfl
theorem hout5 : (dat5 V c).Φ (Fin.last cfg5.N) ⊢ (Pipeline.ΦA spec5 c : sProp 𝕄) := .rfl

end Cert.Kernel.Hand
-- ==== Proof.K.Run.lean ====
import proofs.«429552_j8443905704047_1_alg».proof.Proof.K.FrameCondV
import proofs.«429552_j8443905704047_1_alg».proof.Proof.K.Agg0
import proofs.«429552_j8443905704047_1_alg».proof.Proof.K.Proj1
import proofs.«429552_j8443905704047_1_alg».proof.Proof.K.Agg2
import proofs.«429552_j8443905704047_1_alg».proof.Proof.K.Proj3
import proofs.«429552_j8443905704047_1_alg».proof.Proof.K.Agg4
import proofs.«429552_j8443905704047_1_alg».proof.Proof.K.Proj5
import Idealize.ShloMosaic.Lib.Pipeline.FrameSuffix

set_option backward.isDefEq.respectTransparency.types false

noncomputable section

namespace Cert.Kernel.Hand

open Cert.Kernel Cert.Kernel.Gen
open Idealize.ShloMosaic Idealize.ShloMosaic.TcCoe
open Idealize.ShloMosaic.Rounds
open Idealize.ShloMosaic.Pipeline (Dat)

variable {F : FTy → Type} [FloatOps F]

variable (m : (ℓ : Loc nD τ sig) → Buf (Elt F) ℓ)

-- A region's output is a function of the contents it is entered at, which hold the earlier regions' outputs: defined in stages.
abbrev Vr7 : (c : Dev nD) → (b : Ref sig .tc) → Buf (Elt F) ((c : Thread nD τ).loc b) := fun c b => V7 m c b
def o8 (r : Ref sig .tc) (c : Dev nD) : Buf (Elt F) ((c : Thread nD τ).loc r) :=
  Pipeline.withArrays spec0 c (V7 m c) (fun w => (dat0 (Vr7 m) c).arrAt w cfg0.N) (Proc.devRef .tc r)
def outsA : Outs (F := F) := fun _ r c => o8 m r c

abbrev Vr9 : (c : Dev nD) → (b : Ref sig .tc) → Buf (Elt F) ((c : Thread nD τ).loc b) := fun c b => V9 m (outsA m) c b
def o10 (r : Ref sig .tc) (c : Dev nD) : Buf (Elt F) ((c : Thread nD τ).loc r) :=
  Pipeline.withArrays spec1 c (V9 m (outsA m) c) (fun w => (dat1 (Vr9 m) c).arrAt w cfg1.N) (Proc.devRef .tc r)
def outsB : Outs (F := F) := fun J r c => match J with | 10 => o10 m r c | _ => outsA m J r c

abbrev Vr10 : (c : Dev nD) → (b : Ref sig .tc) → Buf (Elt F) ((c : Thread nD τ).loc b) := fun c b => V10 m (outsB m) c b
def o11 (r : Ref sig .tc) (c : Dev nD) : Buf (Elt F) ((c : Thread nD τ).loc r) :=
  Pipeline.withArrays spec2 c (V10 m (outsB m) c) (fun w => (dat2 (Vr10 m) c).arrAt w cfg2.N) (Proc.devRef .tc r)
def outsC : Outs (F := F) := fun J r c => match J with | 11 => o11 m r c | _ => outsB m J r c

abbrev Vr12 : (c : Dev nD) → (b : Ref sig .tc) → Buf (Elt F) ((c : Thread nD τ).loc b) := fun c b => V12 m (outsC m) c b
def o13 (r : Ref sig .tc) (c : Dev nD) : Buf (Elt F) ((c : Thread nD τ).loc r) :=
  Pipeline.withArrays spec3 c (V12 m (outsC m) c) (fun w => (dat3 (Vr12 m) c).arrAt w cfg3.N) (Proc.devRef .tc r)
def outsD : Outs (F := F) := fun J r c => match J with | 13 => o13 m r c | _ => outsC m J r c

abbrev Vr13 : (c : Dev nD) → (b : Ref sig .tc) → Buf (Elt F) ((c : Thread nD τ).loc b) := fun c b => V13 m (outsD m) c b
def o14 (r : Ref sig .tc) (c : Dev nD) : Buf (Elt F) ((c : Thread nD τ).loc r) :=
  Pipeline.withArrays spec4 c (V13 m (outsD m) c) (fun w => (dat4 (Vr13 m) c).arrAt w cfg4.N) (Proc.devRef .tc r)
def outsE : Outs (F := F) := fun J r c => match J with | 14 => o14 m r c | _ => outsD m J r c

abbrev Vr15 : (c : Dev nD) → (b : Ref sig .tc) → Buf (Elt F) ((c : Thread nD τ).loc b) := fun c b => V15 m (outsE m) c b
def o16 (r : Ref sig .tc) (c : Dev nD) : Buf (Elt F) ((c : Thread nD τ).loc r) :=
  Pipeline.withArrays spec5 c (V15 m (outsE m) c) (fun w => (dat5 (Vr15 m) c).arrAt w cfg5.N) (Proc.devRef .tc r)
def outs : Outs (F := F) := fun J r c => match J with | 16 => o16 m r c | _ => outsE m J r c

theorem outs_v49 (c : Dev nD) : outs m 8 main_v49 c = (dat0 (Vr7 m) c).arrAt 2 cfg0.N := by
  show o8 m main_v49 c = _; unfold o8; exact Pipeline.withArrays_arr spec0 launch0.win.arr_inj c _ _ 2
theorem outs_v51 (c : Dev nD) : outs m 10 main_v51 c = (dat1 (Vr9 m) c).arrAt 3 cfg1.N := by
  show o10 m main_v51 c = _; unfold o10; exact Pipeline.withArrays_arr spec1 launch1.win.arr_inj c _ _ 3
theorem outs_v52 (c : Dev nD) : outs m 11 main_v52 c = (dat2 (Vr10 m) c).arrAt 2 cfg2.N := by
  show o11 m main_v52 c = _; unfold o11; exact Pipeline.withArrays_arr spec2 launch2.win.arr_inj c _ _ 2
theorem outs_v54 (c : Dev nD) : outs m 13 main_v54 c = (dat3 (Vr12 m) c).arrAt 3 cfg3.N := by
  show o13 m main_v54 c = _; unfold o13; exact Pipeline.withArrays_arr spec3 launch3.win.arr_inj c _ _ 3
theorem outs_v55 (c : Dev nD) : outs m 14 main_v55 c = (dat4 (Vr13 m) c).arrAt 2 cfg4.N := by
  show o14 m main_v55 c = _; unfold o14; exact Pipeline.withArrays_arr spec4 launch4.win.arr_inj c _ _ 2
theorem outs_v57 (c : Dev nD) : outs m 16 main_v57 c = (dat5 (Vr15 m) c).arrAt 3 cfg5.N := by
  show o16 m main_v57 c = _; unfold o16; exact Pipeline.withArrays_arr spec5 launch5.win.arr_inj c _ _ 3

-- A valuation reads only the outputs of the regions before it, and every stage after a region keeps that region's output.
theorem Vr9_eq (c : Dev nD) (b : Ref sig .tc) : Vr9 m c b = V9 m (outs m) c b := rfl
theorem Vr10_eq (c : Dev nD) (b : Ref sig .tc) : Vr10 m c b = V10 m (outs m) c b := rfl
theorem Vr12_eq (c : Dev nD) (b : Ref sig .tc) : Vr12 m c b = V12 m (outs m) c b := rfl
theorem Vr13_eq (c : Dev nD) (b : Ref sig .tc) : Vr13 m c b = V13 m (outs m) c b := rfl
theorem Vr15_eq (c : Dev nD) (b : Ref sig .tc) : Vr15 m c b = V15 m (outs m) c b := rfl

def pdats : (p : Fin 6) → (c : Dev nD) → Dat τ (Elt F) Unit ℕ (UR sig nD τ) ℕ (cfgs p) c
  | ⟨0, _⟩ => fun c => dat0 (Vr7 m) c
  | ⟨1, _⟩ => fun c => dat1 (Vr9 m) c
  | ⟨2, _⟩ => fun c => dat2 (Vr10 m) c
  | ⟨3, _⟩ => fun c => dat3 (Vr12 m) c
  | ⟨4, _⟩ => fun c => dat4 (Vr13 m) c
  | ⟨5, _⟩ => fun c => dat5 (Vr15 m) c

theorem run_value (ρ : Dev nD → PrngReg) : θ_run defs (onTc (τ := τ) (main (F := F))) ⟨m, fun _ => 0, ρ⟩ (fun r => ∀ c : Dev nD,
      r.2.mem ((c.tc : Thread nD τ).loc main_v58) = V17 m (outs m) c main_v58
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have hm (b : Ref sig .tc) (hb : ¬(Proc.devRef (τ := τ) .tc b).isScoped) : r.2.mem (c, b) = V17 m (outs m) c b :=
      h c b (Finset.mem_filter.mpr ⟨StableHlo.devRef_mem_tcRefs b, hb⟩)
    ⟨hm main_v58 (by decide), (hm main_arg0 (by decide)).trans (V17_main_arg0 m (outs m) c),
      (hm main_arg1 (by decide)).trans (V17_main_arg1 m (outs m) c), (hm main_arg2 (by decide)).trans (V17_main_arg2 m (outs m) c),
      (hm main_arg3 (by decide)).trans (V17_main_arg3 m (outs m) c), (hm main_arg4 (by decide)).trans (V17_main_arg4 m (outs m) c),
      (hm main_arg5 (by decide)).trans (V17_main_arg5 m (outs m) c), (hm main_arg6 (by decide)).trans (V17_main_arg6 m (outs m) c),
      (hm main_arg7 (by decide)).trans (V17_main_arg7 m (outs m) c), (hm main_arg8 (by decide)).trans (V17_main_arg8 m (outs m) c)⟩)
    (frame_cond_v m (outs m) (pdats := pdats m) ρ
      {lf := launch0, hbody := body_obligation0 (Vr7 m), hin := hin0 (Vr7 m), hout := hout0 (Vr7 m), hval := outs_v49 m}
      {lf := launch1, hbody := body_obligation1 (Vr9 m), hin := hin1 (Vr9 m), hout := hout1 (Vr9 m), hval := outs_v51 m}
      {lf := launch2, hbody := body_obligation2 (Vr10 m), hin := hin2 (Vr10 m), hout := hout2 (Vr10 m), hval := outs_v52 m}
      {lf := launch3, hbody := body_obligation3 (Vr12 m), hin := hin3 (Vr12 m), hout := hout3 (Vr12 m), hval := outs_v54 m}
      {lf := launch4, hbody := body_obligation4 (Vr13 m), hin := hin4 (Vr13 m), hout := hout4 (Vr13 m), hval := outs_v55 m}
      {lf := launch5, hbody := body_obligation5 (Vr15 m), hin := hin5 (Vr15 m), hout := hout5 (Vr15 m), hval := outs_v57 m})

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_value m ρ)

end Cert.Kernel.Hand

end
-- ==== Proof.KI.FrameCondV.lean ====
import proofs.«429552_j8443905704047_1_alg».proof.Proof.Gen.KernelIdeal.Regions
import proofs.«429552_j8443905704047_1_alg».proof.Proof.LibRegion

set_option backward.isDefEq.respectTransparency.types false

noncomputable section

namespace Cert.KernelIdeal.Gen

open Cert.RegionLib
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

variable (m : (ℓ : Loc nD τ sig) → Buf (Elt F) ℓ) (outs : Outs (F := F))
  {pdats : (p : Fin 6) → (c : Dev nD) → Dat τ (Elt F) Unit ℕ (UR sig nD τ) ℕ (cfgs p) c}

-- Given each region's facts, every fair execution terminates with each unscoped buffer at the last valuation.
theorem frame_cond_v (ρ : Dev nD → PrngReg)
    (h0 : RegFacts defs₀ pdats 0 (V7 m) (2 : Fin 3) (outs 8 main_v49)) (h1 : RegFacts defs₀ pdats 1 (V9 m outs) (3 : Fin 4) (outs 10 main_v51))
    (h2 : RegFacts defs₀ pdats 2 (V10 m outs) (2 : Fin 3) (outs 11 main_v52)) (h3 : RegFacts defs₀ pdats 3 (V12 m outs) (3 : Fin 4) (outs 13 main_v54))
    (h4 : RegFacts defs₀ pdats 4 (V13 m outs) (2 : Fin 3) (outs 14 main_v55)) (h5 : RegFacts defs₀ pdats 5 (V15 m outs) (3 : Fin 4) (outs 16 main_v57)) :
    θ_run defs (onTc (τ := τ) (main (F := F))) ⟨m, fun _ => 0, ρ⟩ (fun r => ∀ c : Dev nD, ∀ b ∈ Pipeline.ucRefs τ sig,
      r.2.mem (c, b) = V17 m outs c b) := by
  refine Pipeline.θ_run_regions_kit_dev (pcfgs (F := F)) adm pdats () cellOf_inj emb₁ defs₀ Variants.none Lz lvz m ρ main
    (segs m outs Variants.none Lz lvz (fun _ => Rest) () pdats h0.seg h1.seg h2.seg h3.seg h4.seg h5.seg)
    (fun c Q => by
      rewrite [Seg.run_eq_chain, ← show main (F := F) c = Pipeline.chain
        ((segs m outs Variants.none Lz lvz (fun _ => Rest) () pdats h0.seg h1.seg h2.seg h3.seg h4.seg h5.seg c).map Seg.prog) from main_chain c]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) (launch_ghost _)
    (T₀ := fun c => iprop(StableHlo.held (c : Thread nD τ) (Pipeline.ucRefs τ sig) (V0 m c) ∗ Rest c))
    (Tₙ := fun c => StableHlo.held (c : Thread nD τ) (Pipeline.ucRefs τ sig) (V17 m outs c))
    (hch := fun c => ⟨.rfl, .rfl, .rfl, .rfl, .rfl, .rfl, .rfl, .rfl, .rfl, .rfl, .rfl, .rfl, .rfl, .rfl, .rfl, .rfl, .rfl,
      sep_mono .rfl (by iintro ⟨-, HO⟩; iexact HO)⟩)
    (hinit := Pipeline.initEach Lz lvz fun c => ?_) (QY := fun c s => ∀ b ∈ Pipeline.ucRefs τ sig, s.mem (c, b) = V17 m outs c b)
    (hfin := fun c s' => ?_) (hQ := fun _ h => h)
  · rw [← Pipeline.unscopedBufs_held (Ix := Unit) (Name := ℕ) (U := UR sig nD τ) (Lvl := ℕ) c (V0 m c)]
    iintro ⟨⟨Hb, -, HO, -, Hp, -⟩, -⟩
    imodintro
    isplitl [Hb]; · iexact Hb
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V17 m outs c) s') $$ [Hh HSI]
    · isplitl [Hh] <;> iassumption
    icases Hr with ⟨%h, HSI⟩
    imodintro
    isplitr
    · ipureintro; exact h
    · iexact HSI

end Cert.KernelIdeal.Gen

end
-- ==== Proof.KI.Agg0.lean ====
import proofs.«429552_j8443905704047_1_alg».proof.Proof.Gen.KernelIdeal.Launch
import proofs.«429552_j8443905704047_1_alg».proof.Proof.Gen.KernelIdeal.Skeleton
import proofs.«429552_j8443905704047_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

section body
variable {c : Dev nD} {i : grid0.Coords} {a2 a3 a4 : Memref sig .tc .vmem S1024x1024 .bf16} {h2 : a2.IsWhole} {h3 : a3.IsWhole} {h4 : a4.IsWhole}
  {a5 : Memref sig .tc .vmem S1024x1024 .f32} {h5 : a5.IsWhole} {xa xb : Vec F S1024x1024 .bf16} {xs : Vec F S1024x1024 .f32} {E : Set ℕ}

/-- The position on the reduction axis is 0. -/
abbrev isFirst (i : grid0.Coords) : Prop := Scalar.cmpi .ne (Scalar.extui (Scalar.cmpi .eq (BitVec.ofNat 32 (i 1).val) 0#32)) 0#32 = 1#1

theorem hz : (![0, 0] : Fin 2 → Nat) = fun _ => 0 := funext fun a => by fin_cases a <;> rfl

/-- The body of the accumulation regions: the three regions' bodies are this one text. -/
abbrev aggBody := cc0__agg_kernel (F := F)

/-- At the first position of a run the accumulator, whatever it held, is zeroed and then holds the first product; the output buffer is untouched. -/
theorem agg_first {R G W : sProp 𝕄} {T2 T3 : Type} {Y : Vec F S1024x1024 .bf16 → Vec F S1024x1024 .bf16} (hreset : isFirst i) (hstore : ¬k0_cond2 i = 1#1) :
    iprop(iprop(iprop((∃ d, owns c a5 fullShare d) ∗ R) ∗ G) ∗ W ∗ (∃ _d : T2, owns c a2 fullShare xa) ∗ (∃ _d : T3, owns c a3 fullShare xb) ∗ (∃ d, owns c a4 fullShare (Y d)))
      ⊢ wp frame (wpE (defs₀ (F := F)) Variants.none c none) E (aggBody i a2 h2 a3 h3 a4 h4 a5 h5) fun _ =>
        iprop(iprop(iprop(owns c a5 fullShare (k0_pay2 (k0_pay1 (F := F)) xa xb) ∗ R) ∗ G) ∗ W ∗ owns c a2 fullShare xa ∗ owns c a3 fullShare xb ∗ (∃ d, owns c a4 fullShare (Y d))) := by
  simp only [aggBody, cc0__agg_kernel_eq_skeleton]; unfold cc0__agg_kernel_skel owns
  iintro ⟨⟨⟨⟨%ds, %fs, -, Hs⟩, Hr⟩, Hg⟩, Hw, ⟨%_, %fa, %hfa, Ha⟩, ⟨%_, %fb, %hfb, Hb⟩, ⟨%d, %fo, %hfo, Ho⟩⟩
  obtain rfl := h2.eq_unread hfa; obtain rfl := h3.eq_unread hfb; obtain rfl := h4.eq_unread hfo
  sl_exec (disch := first | exact hreset | exact hstore)
  sl_step
  iframe Hr Hg Hw
  isplitl [Hs]
  · iexists _; iframe Hs; ipureintro
    refine (View.read_writes_eq_canon _ _ _ (View.cover_of_tiledL _ S1024x1024.size (by sl_kernel_rfl))).trans ?_
    sl_unfold_words
    rw [View.canon_cons_unit_zero (S := S1024x1024) hz]
    simp only [View.readAt_eq_ld, h2.read_unread, h3.read_unread, View.ld_unit_zero (S := S1024x1024) hz,
      View.readCov_unit_zero (S := S1024x1024) _ hz]
  isplitl [Ha]; · iexists _; iframe Ha; ipureintro; exact h2.read_unread _
  isplitl [Hb]; · iexists _; iframe Hb; ipureintro; exact h3.read_unread _
  iexists d, _; iframe Ho; ipureintro; exact h4.read_unread _

/-- At a middle position the accumulator has the point's product added; the output buffer is untouched. -/
theorem agg_mid {R G W : sProp 𝕄} {T2 T3 : Type} {Y : Vec F S1024x1024 .bf16 → Vec F S1024x1024 .bf16} (hreset : ¬isFirst i) (hstore : ¬k0_cond2 i = 1#1) :
    iprop(iprop(iprop(owns c a5 fullShare xs ∗ R) ∗ G) ∗ W ∗ (∃ _d : T2, owns c a2 fullShare xa) ∗ (∃ _d : T3, owns c a3 fullShare xb) ∗ (∃ d, owns c a4 fullShare (Y d)))
      ⊢ wp frame (wpE (defs₀ (F := F)) Variants.none c none) E (aggBody i a2 h2 a3 h3 a4 h4 a5 h5) fun _ =>
        iprop(iprop(iprop(owns c a5 fullShare (k0_pay2 xs xa xb) ∗ R) ∗ G) ∗ W ∗ owns c a2 fullShare xa ∗ owns c a3 fullShare xb ∗ (∃ d, owns c a4 fullShare (Y d))) := by
  simp only [aggBody, cc0__agg_kernel_eq_skeleton]; unfold cc0__agg_kernel_skel owns
  iintro ⟨⟨⟨⟨%fs, %hfs, Hs⟩, Hr⟩, Hg⟩, Hw, ⟨%_, %fa, %hfa, Ha⟩, ⟨%_, %fb, %hfb, Hb⟩, ⟨%d, %fo, %hfo, Ho⟩⟩
  obtain rfl := h2.eq_unread hfa; obtain rfl := h3.eq_unread hfb; obtain rfl := h4.eq_unread hfo; obtain rfl := h5.eq_unread hfs
  sl_exec (disch := first | exact hreset | exact hstore)
  sl_step
  iframe Hr Hg Hw
  isplitl [Hs]
  · iexists _; iframe Hs; ipureintro
    refine (View.read_writes_eq_canon _ _ _ (View.cover_of_tiledL _ S1024x1024.size (by sl_kernel_rfl))).trans ?_
    sl_unfold_words
    rw [View.canon_unit_zero (S := S1024x1024) hz]
    simp only [View.readAt_eq_ld, h2.read_unread, h3.read_unread, h5.read_unread, View.ld_unit_zero (S := S1024x1024) hz]
  isplitl [Ha]; · iexists _; iframe Ha; ipureintro; exact h2.read_unread _
  isplitl [Hb]; · iexists _; iframe Hb; ipureintro; exact h3.read_unread _
  iexists d, _; iframe Ho; ipureintro; exact h4.read_unread _

/-- At the last position the accumulator has the point's product added, and the sum, rounded, is stored over the whole output buffer. -/
theorem agg_last {R G W : sProp 𝕄} {T2 T3 : Type} {Y : Vec F S1024x1024 .bf16 → Vec F S1024x1024 .bf16} (hreset : ¬isFirst i) (hstore : k0_cond2 i = 1#1) :
    iprop(iprop(iprop(owns c a5 fullShare xs ∗ R) ∗ G) ∗ W ∗ (∃ _d : T2, owns c a2 fullShare xa) ∗ (∃ _d : T3, owns c a3 fullShare xb) ∗ (∃ d, owns c a4 fullShare (Y d)))
      ⊢ wp frame (wpE (defs₀ (F := F)) Variants.none c none) E (aggBody i a2 h2 a3 h3 a4 h4 a5 h5) fun _ =>
        iprop(iprop(iprop(owns c a5 fullShare (k0_pay2 xs xa xb) ∗ R) ∗ G) ∗ W ∗ owns c a2 fullShare xa ∗ owns c a3 fullShare xb ∗ owns c a4 fullShare (k0_pay3 (k0_pay2 xs xa xb))) := by
  simp only [aggBody, cc0__agg_kernel_eq_skeleton]; unfold cc0__agg_kernel_skel owns
  iintro ⟨⟨⟨⟨%fs, %hfs, Hs⟩, Hr⟩, Hg⟩, Hw, ⟨%_, %fa, %hfa, Ha⟩, ⟨%_, %fb, %hfb, Hb⟩, ⟨%d, %fo, -, Ho⟩⟩
  obtain rfl := h2.eq_unread hfa; obtain rfl := h3.eq_unread hfb; obtain rfl := h5.eq_unread hfs
  sl_exec (disch := first | exact hreset | exact hstore)
  sl_step
  iframe Hr Hg Hw
  isplitl [Hs]
  · iexists _; iframe Hs; ipureintro
    refine (View.read_writes_eq_canon _ _ _ (View.cover_of_tiledL _ S1024x1024.size (by sl_kernel_rfl))).trans ?_
    sl_unfold_words
    rw [View.canon_unit_zero (S := S1024x1024) hz]
    simp only [View.readAt_eq_ld, h2.read_unread, h3.read_unread, h5.read_unread, View.ld_unit_zero (S := S1024x1024) hz]
  isplitl [Ha]; · iexists _; iframe Ha; ipureintro; exact h2.read_unread _
  isplitl [Hb]; · iexists _; iframe Hb; ipureintro; exact h3.read_unread _
  iexists _; iframe Ho; ipureintro
  refine (View.read_writes_eq_canon _ _ _ (View.cover_of_tiledL _ S1024x1024.size (by sl_kernel_rfl))).trans ?_
  sl_unfold_words
  rw [View.canon_unit_zero (S := S1024x1024) hz]
  simp only [View.readAt_eq_ld, h2.read_unread, h3.read_unread, h5.read_unread, View.ld_unit_zero (S := S1024x1024) hz,
    View.readCov_unit_zero (S := S1024x1024) _ hz]

/-- The body at a point of a region of this kind, from the region's facts: where its runs start and end, what its invariant holds before the point, how its accumulator moves, and what its output buffer is left at. -/
theorem agg_point {P Q W W' B0 B1 B2 L0 L1 L2 R G : sProp 𝕄} {T2 T3 : Type} {Y : Vec F S1024x1024 .bf16 → Vec F S1024x1024 .bf16}
    {prog : Prog (TpuEff nD τ sig (Elt F) Λ₀ .tc) PUnit} {n : ℕ} {s : Vec F S1024x1024 .f32}
    (hprog : prog = aggBody i a2 h2 a3 h3 a4 h4 a5 h5) (h0 : isFirst i ↔ n % 10 = 0) (h9 : k0_cond2 i = 1#1 ↔ n % 10 = 9) (hW : W' = W)
    (hB0 : B0 = iprop(∃ _d : T2, owns c a2 fullShare xa)) (hB1 : B1 = iprop(∃ _d : T3, owns c a3 fullShare xb)) (hB2 : B2 = iprop(∃ d, owns c a4 fullShare (Y d)))
    (hP0 : P ⊢ iprop(iprop((∃ d, owns c a5 fullShare d) ∗ R) ∗ G)) (hP1 : n % 10 ≠ 0 → P = iprop(iprop(owns c a5 fullShare xs ∗ R) ∗ G))
    (hs0 : n % 10 = 0 → s = k0_pay2 (k0_pay1 (F := F)) xa xb) (hs1 : n % 10 ≠ 0 → s = k0_pay2 xs xa xb)
    (hQ : Q = iprop(iprop(owns c a5 fullShare s ∗ R) ∗ G)) (hL0 : L0 = owns c a2 fullShare xa) (hL1 : L1 = owns c a3 fullShare xb)
    (hi : ¬k0_cond2 i = 1#1 → L2 = iprop(∃ d, owns c a4 fullShare (Y d))) (hl : k0_cond2 i = 1#1 → L2 = owns c a4 fullShare (k0_pay3 s)) :
    iprop(P ∗ W ∗ B0 ∗ B1 ∗ B2) ⊢ wp frame (wpE (defs₀ (F := F)) Variants.none c none) E prog fun _ => iprop(Q ∗ W' ∗ L0 ∗ L1 ∗ L2) := by
  subst hprog hW hB0 hB1 hB2 hQ hL0 hL1
  by_cases hf : n % 10 = 0
  · have hst : ¬k0_cond2 i = 1#1 := fun h => by have := h9.mp h; omega
    rw [hi hst, hs0 hf]
    exact (sep_mono_l hP0).trans (agg_first (h0.mpr hf) hst)
  · have hr : ¬isFirst i := fun h => hf (h0.mp h)
    rw [hP1 hf, hs1 hf]
    by_cases hla : k0_cond2 i = 1#1
    · rw [hl hla, hs1 hf]; exact agg_last hr hla
    · rw [hi hla]; exact agg_mid hr hla

/-- On the 10 x 10 grid point `t` sits at position `t % 10` of its reduction run. -/
theorem first_iff : ∀ t : Fin cfg0.N, isFirst (grid0.coords t) ↔ t.val % 10 = 0 := by decide +kernel
theorem last_iff : ∀ t : Fin cfg0.N, k0_cond2 (grid0.coords t) = 1#1 ↔ t.val % 10 = 9 := by decide +kernel
theorem out_idle : ∀ t : Fin cfg0.N, ¬k0_cond2 (grid0.coords t) = 1#1 → cfg0.idle 2 (grid0.coords t) = true := by decide +kernel
theorem out_kept : ∀ t : Fin cfg0.N, ¬k0_cond2 (grid0.coords t) = 1#1 → (cfg0.win 2).flush t = false := by decide +kernel
theorem out_live : ∀ t : Fin cfg0.N, k0_cond2 (grid0.coords t) = 1#1 → cfg0.idle 2 (grid0.coords t) = false := by decide +kernel

end body

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev scM0_0 : Memref sig .tc .vmem S1024x1024 .f32 := Memref.whole cc0_scratch0

/-- The frame of the region's invariant around the accumulator's assertion `P`. -/
abbrev inv0 (c : Dev nD) (P : sProp 𝕄) : sProp 𝕄 := iprop(iprop(P ∗ Pipeline.scopedRestBut spec0 c [cc0_scratch0]) ∗ (∃ r, prngReg c r))

theorem PhiA0_eq (c : Dev nD) : (Pipeline.ΦA spec0 c : sProp 𝕄) = inv0 c iprop(∃ d, owns c scM0_0 fullShare d) := by
  unfold Pipeline.ΦA; rw [scopedRest0_split]; simp only [scM0_0, owns_whole]; rfl

/-- What the accumulator holds after point `n`: the point's product, added to zero at the first position of a run and to what the point before left elsewhere. -/
def acc0 (c : Dev nD) : (n : ℕ) → n < cfg0.N → Vec F S1024x1024 .f32
  | 0, hn => k0_pay2 (k0_pay1 (F := F)) (iblk0 V c 0 ⟨0, hn⟩) (iblk0 V c 1 ⟨0, hn⟩)
  | n + 1, hn =>
    if (n + 1) % 10 = 0 then k0_pay2 (k0_pay1 (F := F)) (iblk0 V c 0 ⟨n + 1, hn⟩) (iblk0 V c 1 ⟨n + 1, hn⟩)
    else k0_pay2 (acc0 c n (Nat.lt_of_succ_lt hn)) (iblk0 V c 0 ⟨n + 1, hn⟩) (iblk0 V c 1 ⟨n + 1, hn⟩)

theorem acc0_first (c : Dev nD) (t : Fin cfg0.N) (h : t.val % 10 = 0) :
    acc0 V c t.val t.isLt = k0_pay2 (k0_pay1 (F := F)) (iblk0 V c 0 t) (iblk0 V c 1 t) := by
  obtain ⟨_ | n, hn⟩ := t
  exacts [rfl, if_pos h]

theorem acc0_next (c : Dev nD) (t : Fin cfg0.N) (h : t.val % 10 ≠ 0) :
    acc0 V c t.val t.isLt = k0_pay2 (acc0 V c (t.val - 1) (Nat.lt_of_le_of_lt (Nat.sub_le _ _) t.isLt)) (iblk0 V c 0 t) (iblk0 V c 1 t) := by
  obtain ⟨_ | n, hn⟩ := t
  exacts [absurd (Nat.zero_mod _) h, if_neg h]

/-- The invariant before position `n`: what the region is handed before the first point, afterwards the accumulator at what the point before left. -/
def PhiS0 (c : Dev nD) (n : ℕ) (h : n ≤ cfg0.N) : sProp 𝕄 :=
  if hn : n = 0 then Pipeline.ΦA spec0 c else inv0 c (owns c scM0_0 fullShare (acc0 V c (n - 1) (by omega)))

/-- Before any point the invariant yields the accumulator at some contents. -/
theorem PhiS0_any (c : Dev nD) (n : ℕ) (h : n ≤ cfg0.N) :
    PhiS0 V c n h ⊢ inv0 c iprop(∃ d, owns c scM0_0 fullShare d) := by
  unfold PhiS0; split
  · exact (PhiA0_eq c).le
  · unfold inv0
    iintro ⟨⟨Hs, Hr⟩, Hg⟩
    iframe Hr Hg
    iexists _; iexact Hs

/-- The region's proof data: each input keeps its block, the output holds the accumulator rounded, the invariant is `PhiS0`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay3 (acc0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := rfl

theorem after0_2 (c : Dev nD) (t : Fin cfg0.N) (h : t.val % 10 = 9) : (dat0 V c).after 2 t = k0_pay3 (acc0 V c t.val t.isLt) := rfl

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  exact agg_point (h2 := hstage0_0 _) (h3 := hstage0_1 _) (h4 := hstage0_2 _) (h5 := Memref.isWhole_whole _) rfl (first_iff t) (last_iff t) rfl (by simp only [before0_0]; rfl) (by simp only [before0_1]; rfl) rfl
    (PhiS0_any V c t.val (Nat.le_of_lt t.isLt)) (fun h => by show PhiS0 V c t.val (Nat.le_of_lt t.isLt) = _; unfold PhiS0; exact dif_neg fun e => h (by rw [e])) (acc0_first V c t) (acc0_next V c t) rfl rfl rfl
    (fun h => Dat.leavesExact_idle (dat0 V c) 2 t (out_idle t h) (out_kept t h))
    (fun h => by rw [show cfg0.idle 2 (cfg0.grid.coords t) = false from out_live t h]; rfl)

theorem hin0 (c : Dev nD) : (Pipeline.ΦA spec0 c : sProp 𝕄) ⊢ (dat0 V c).Φ 0 := Idealize.SL.BI.Entails.refl _

/-- After the last point the accumulator's named contents are forgotten. -/
theorem hout0 (c : Dev nD) : (dat0 V c).Φ (Fin.last cfg0.N) ⊢ (Pipeline.ΦA spec0 c : sProp 𝕄) := by
  rw [PhiA0_eq]; exact PhiS0_any V c cfg0.N (Nat.le_refl _)

end Cert.KernelIdeal.Hand
end
-- ==== Proof.KI.Proj1.lean ====
import proofs.«429552_j8443905704047_1_alg».proof.Proof.Gen.KernelIdeal.Launch
import proofs.«429552_j8443905704047_1_alg».proof.Proof.Gen.KernelIdeal.Skeleton
import proofs.«429552_j8443905704047_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b)) (c : Dev nD)

/-- Window `w`'s block at grid point `t`: the part of its array, as the region finds it, that the window's index map selects there. -/
def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

theorem zeros1 : (![0, 0] : Fin 2 → Nat) = fun _ => 0 := funext fun a => by fin_cases a <;> rfl

/-- What the body leaves in the output's buffer: the layer's value at the three input blocks. -/
def out1_3 (x0 : Vec F S2048x1024 .bf16) (x1 : Vec F S1024x1024 .bf16) (x2 : Vec F S1x1024 .f32) : Vec F S2048x1024 .bf16 :=
  k1_pay1 x0 x1 x2

theorem out1_3_eq (x0 : Vec F S2048x1024 .bf16) (x1 : Vec F S1024x1024 .bf16) (x2 : Vec F S1x1024 .f32) : out1_3 x0 x1 x2 = k1_pay1 x0 x1 x2 := rfl

/-- Any body of this form, at any shapes: three loads of whole buffers that change nothing, a fourth that is dropped, and one store of `pay` of the three over the whole output buffer. Stated in the shape of the body obligation, beside a frame `P ∗ Q`. -/
theorem sound_whole (S0 S1 S2 S3 : Shape) (e0 e1 e2 e3 : EltTy) (E : Set ℕ) (pay : Vec F S0 e0 → Vec F S1 e1 → Vec F S2 e2 → Vec F S3 e3)
    (arg1 : Memref sig .tc .vmem S0 e0) (arg2 : Memref sig .tc .vmem S1 e1) (arg3 : Memref sig .tc .vmem S2 e2) (arg4 : Memref sig .tc .vmem S3 e3)
    {o0 o1 o2 o3} (z0 : o0 = fun _ => 0) (z1 : o1 = fun _ => 0) (z2 : o2 = fun _ => 0) (z3 : o3 = fun _ => 0) (i0 i1 i2 i3) (l0 l1 l2 l3 st)
    {D0 D1 D2 D3 : Type} {g0 : D0 → Vec F S0 e0} {g1 : D1 → Vec F S1 e1} {g2 : D2 → Vec F S2 e2} {g3 : D3 → Vec F S3 e3}
    {x0 x1 x2} (h0 : ∀ d, g0 d = x0) (h1 : ∀ d, g1 d = x1) (h2 : ∀ d, g2 d = x2) (P Q : sProp 𝕄) :
    iprop(P ∗ Q ∗ (∃ d, owns (c : Thread nD τ) arg1 fullShare (g0 d)) ∗ (∃ d, owns (c : Thread nD τ) arg2 fullShare (g1 d))
        ∗ (∃ d, owns (c : Thread nD τ) arg3 fullShare (g2 d)) ∗ (∃ d, owns (c : Thread nD τ) arg4 fullShare (g3 d)))
      ⊢ wp frame (wpE (defs₀ (F := F)) Variants.none c none) E
        (do let v0 ← Prog.lift (.load arg1 (Rect.unit o0 S0.size i0).toLoadRect l0)
            let v1 ← Prog.lift (.load arg2 (Rect.unit o1 S1.size i1).toLoadRect l1)
            let v2 ← Prog.lift (.load arg3 (Rect.unit o2 S2.size i2).toLoadRect l2)
            let _ ← Prog.lift (.load arg4 (Rect.unit o3 S3.size i3).toLoadRect l3)
            Prog.lift (.store arg4 (Rect.unit o3 S3.size i3) (pay v0 v1 v2) Finset.univ st (.inl rfl))
            pure ⟨⟩ : Prog (TpuEff nD τ sig (Elt F) Λ₀ .tc) PUnit) fun _ =>
        iprop(P ∗ Q ∗ owns (c : Thread nD τ) arg1 fullShare x0 ∗ owns (c : Thread nD τ) arg2 fullShare x1
          ∗ owns (c : Thread nD τ) arg3 fullShare x2 ∗ owns (c : Thread nD τ) arg4 fullShare (pay x0 x1 x2)) := by
  simp only [h0, h1, h2]; unfold owns
  iintro ⟨HP, HQ, ⟨%_, %f0, %hf0, H0⟩, ⟨%_, %f1, %hf1, H1⟩, ⟨%_, %f2, %hf2, H2⟩, ⟨%_, %f3, -, H3⟩⟩
  subst hf0 hf1 hf2
  sl_exec
  sl_step
  iframe
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact (View.read_writes_eq_canon _ _ _ fun y => ⟨_, List.mem_singleton_self _, View.mem_set_unit_zero z3 i3 y⟩).trans <|
    (View.canon_unit_zero z3 _ _).trans <| congr (congr (congrArg pay (View.ld_unit_zero z0 _ _)) (View.ld_unit_zero z1 _ _)) (View.ld_unit_zero z2 _ _)

/-- The region's proof data: the arrays as the region finds them; the body leaves each input at its block and the output at `out1_3` of the three blocks. -/
def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (w : Fin cfg1.W) : (dat1 V c).A w = V c (Pipeline.arrRef spec1 w) := rfl

theorem after1_3 (t : Fin cfg1.N) : (dat1 V c).after 3 t = out1_3 (iblk1 V c 0 t) (iblk1 V c 1 t) (iblk1 V c 2 t) := by
  dsimp only [dat1]

/-- The body leaves every input as it found it, so at each grid point an input's buffer holds that point's block. -/
theorem before1_0 (t d) : (dat1 V c).before 0 t d = iblk1 V c 0 t :=
  ((dat1 V c).before_in_eq_fetched 0 rfl (fun _ => rfl) (fun _ _ _ => rfl) (fun _ => rfl) t d).trans rfl
theorem before1_1 (t d) : (dat1 V c).before 1 t d = iblk1 V c 1 t :=
  ((dat1 V c).before_in_eq_fetched 1 rfl (fun _ => rfl) (fun _ _ _ => rfl) (fun _ => rfl) t d).trans rfl
theorem before1_2 (t d) : (dat1 V c).before 2 t d = iblk1 V c 2 t :=
  ((dat1 V c).before_in_eq_fetched 2 rfl (fun _ => rfl) (fun _ _ _ => rfl) (fun _ => rfl) t d).trans rfl

theorem body_obligation1 : BodyObligation (dat1 (F := F) V c) (defs₀ (F := F)) Variants.none () Set.univ := fun t => by
  rw [bigSep_W1, bigSep_W1, after1_3]
  sl_whnfR [defs₀, Defs.onTc]
  rw [cc1_kernel_eq_skeleton]; unfold cc1_kernel_skel
  exact sound_whole c S2048x1024 S1024x1024 S1x1024 S2048x1024 .bf16 .bf16 .f32 .bf16 Set.univ k1_pay1 _ _ _ _ zeros1 zeros1 zeros1 zeros1 _ _ _ _ _ _ _ _ _ (before1_0 V c t) (before1_1 V c t) (before1_2 V c t) _ _

theorem hin1 : (Pipeline.ΦA spec1 c : sProp 𝕄) ⊢ (dat1 V c).Φ 0 := .rfl
theorem hout1 : (dat1 V c).Φ (Fin.last cfg1.N) ⊢ (Pipeline.ΦA spec1 c : sProp 𝕄) := .rfl

end Cert.KernelIdeal.Hand
-- ==== Proof.KI.Agg2.lean ====
import proofs.«429552_j8443905704047_1_alg».proof.Proof.KI.Agg0
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev scM2_0 : Memref sig .tc .vmem S1024x1024 .f32 := Memref.whole cc2_scratch0

/-- The frame of the region's invariant around the accumulator's assertion `P`. -/
abbrev inv2 (c : Dev nD) (P : sProp 𝕄) : sProp 𝕄 := iprop(iprop(P ∗ Pipeline.scopedRestBut spec2 c [cc2_scratch0]) ∗ (∃ r, prngReg c r))

theorem PhiA2_eq (c : Dev nD) : (Pipeline.ΦA spec2 c : sProp 𝕄) = inv2 c iprop(∃ d, owns c scM2_0 fullShare d) := by
  unfold Pipeline.ΦA; rw [scopedRest2_split]; simp only [scM2_0, owns_whole]; rfl

/-- What the accumulator holds after point `n`: the point's product, added to zero at the first position of a run and to what the point before left elsewhere. -/
def acc2 (c : Dev nD) : (n : ℕ) → n < cfg2.N → Vec F S1024x1024 .f32
  | 0, hn => k2_pay2 (k2_pay1 (F := F)) (iblk2 V c 0 ⟨0, hn⟩) (iblk2 V c 1 ⟨0, hn⟩)
  | n + 1, hn =>
    if (n + 1) % 10 = 0 then k2_pay2 (k2_pay1 (F := F)) (iblk2 V c 0 ⟨n + 1, hn⟩) (iblk2 V c 1 ⟨n + 1, hn⟩)
    else k2_pay2 (acc2 c n (Nat.lt_of_succ_lt hn)) (iblk2 V c 0 ⟨n + 1, hn⟩) (iblk2 V c 1 ⟨n + 1, hn⟩)

theorem acc2_first (c : Dev nD) (t : Fin cfg2.N) (h : t.val % 10 = 0) :
    acc2 V c t.val t.isLt = k2_pay2 (k2_pay1 (F := F)) (iblk2 V c 0 t) (iblk2 V c 1 t) := by
  obtain ⟨_ | n, hn⟩ := t
  exacts [rfl, if_pos h]

theorem acc2_next (c : Dev nD) (t : Fin cfg2.N) (h : t.val % 10 ≠ 0) :
    acc2 V c t.val t.isLt = k2_pay2 (acc2 V c (t.val - 1) (Nat.lt_of_le_of_lt (Nat.sub_le _ _) t.isLt)) (iblk2 V c 0 t) (iblk2 V c 1 t) := by
  obtain ⟨_ | n, hn⟩ := t
  exacts [absurd (Nat.zero_mod _) h, if_neg h]

/-- The invariant before position `n`: what the region is handed before the first point, afterwards the accumulator at what the point before left. -/
def PhiS2 (c : Dev nD) (n : ℕ) (h : n ≤ cfg2.N) : sProp 𝕄 :=
  if hn : n = 0 then Pipeline.ΦA spec2 c else inv2 c (owns c scM2_0 fullShare (acc2 V c (n - 1) (by omega)))

/-- Before any point the invariant yields the accumulator at some contents. -/
theorem PhiS2_any (c : Dev nD) (n : ℕ) (h : n ≤ cfg2.N) :
    PhiS2 V c n h ⊢ inv2 c iprop(∃ d, owns c scM2_0 fullShare d) := by
  unfold PhiS2; split
  · exact (PhiA2_eq c).le
  · unfold inv2
    iintro ⟨⟨Hs, Hr⟩, Hg⟩
    iframe Hr Hg
    iexists _; iexact Hs

/-- The region's proof data: each input keeps its block, the output holds the accumulator rounded, the invariant is `PhiS2`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.val t.isLt)
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem after2_2 (c : Dev nD) (t : Fin cfg2.N) (h : t.val % 10 = 9) : (dat2 V c).after 2 t = k2_pay3 (acc2 V c t.val t.isLt) := rfl

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  exact agg_point (h2 := hstage2_0 _) (h3 := hstage2_1 _) (h4 := hstage2_2 _) (h5 := Memref.isWhole_whole _) rfl (first_iff t) (last_iff t) rfl (by simp only [before2_0]; rfl) (by simp only [before2_1]; rfl) rfl
    (PhiS2_any V c t.val (Nat.le_of_lt t.isLt)) (fun h => by show PhiS2 V c t.val (Nat.le_of_lt t.isLt) = _; unfold PhiS2; exact dif_neg fun e => h (by rw [e])) (acc2_first V c t) (acc2_next V c t) rfl rfl rfl
    (fun h => Dat.leavesExact_idle (dat2 V c) 2 t (out_idle t h) (out_kept t h))
    (fun h => by rw [show cfg2.idle 2 (cfg2.grid.coords t) = false from out_live t h]; rfl)

theorem hin2 (c : Dev nD) : (Pipeline.ΦA spec2 c : sProp 𝕄) ⊢ (dat2 V c).Φ 0 := Idealize.SL.BI.Entails.refl _

/-- After the last point the accumulator's named contents are forgotten. -/
theorem hout2 (c : Dev nD) : (dat2 V c).Φ (Fin.last cfg2.N) ⊢ (Pipeline.ΦA spec2 c : sProp 𝕄) := by
  rw [PhiA2_eq]; exact PhiS2_any V c cfg2.N (Nat.le_refl _)

end Cert.KernelIdeal.Hand
end
-- ==== Proof.KI.Proj3.lean ====
import proofs.«429552_j8443905704047_1_alg».proof.Proof.KI.Proj1
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b)) (c : Dev nD)

/-- Window `w`'s block at grid point `t`: the part of its array, as the region finds it, that the window's index map selects there. -/
def iblk3 (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the body leaves in the output's buffer: the layer's value at the three input blocks. -/
def out3_3 (x0 : Vec F S2048x1024 .bf16) (x1 : Vec F S1024x1024 .bf16) (x2 : Vec F S1x1024 .f32) : Vec F S2048x1024 .bf16 :=
  k3_pay1 x0 x1 x2

theorem out3_3_eq (x0 : Vec F S2048x1024 .bf16) (x1 : Vec F S1024x1024 .bf16) (x2 : Vec F S1x1024 .f32) : out3_3 x0 x1 x2 = k3_pay1 x0 x1 x2 := rfl

/-- The region's proof data: the arrays as the region finds them; the body leaves each input at its block and the output at `out3_3` of the three blocks. -/
def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (w : Fin cfg3.W) : (dat3 V c).A w = V c (Pipeline.arrRef spec3 w) := rfl

theorem after3_3 (t : Fin cfg3.N) : (dat3 V c).after 3 t = out3_3 (iblk3 V c 0 t) (iblk3 V c 1 t) (iblk3 V c 2 t) := by
  dsimp only [dat3]

/-- The body leaves every input as it found it, so at each grid point an input's buffer holds that point's block. -/
theorem before3_0 (t d) : (dat3 V c).before 0 t d = iblk3 V c 0 t :=
  ((dat3 V c).before_in_eq_fetched 0 rfl (fun _ => rfl) (fun _ _ _ => rfl) (fun _ => rfl) t d).trans rfl
theorem before3_1 (t d) : (dat3 V c).before 1 t d = iblk3 V c 1 t :=
  ((dat3 V c).before_in_eq_fetched 1 rfl (fun _ => rfl) (fun _ _ _ => rfl) (fun _ => rfl) t d).trans rfl
theorem before3_2 (t d) : (dat3 V c).before 2 t d = iblk3 V c 2 t :=
  ((dat3 V c).before_in_eq_fetched 2 rfl (fun _ => rfl) (fun _ _ _ => rfl) (fun _ => rfl) t d).trans rfl

theorem body_obligation3 : BodyObligation (dat3 (F := F) V c) (defs₀ (F := F)) Variants.none () Set.univ := fun t => by
  rw [bigSep_W3, bigSep_W3, after3_3]
  sl_whnfR [defs₀, Defs.onTc]
  rw [cc3_kernel_eq_skeleton]; unfold cc3_kernel_skel
  exact sound_whole c S2048x1024 S1024x1024 S1x1024 S2048x1024 .bf16 .bf16 .f32 .bf16 Set.univ k3_pay1 _ _ _ _ zeros1 zeros1 zeros1 zeros1 _ _ _ _ _ _ _ _ _ (before3_0 V c t) (before3_1 V c t) (before3_2 V c t) _ _

theorem hin3 : (Pipeline.ΦA spec3 c : sProp 𝕄) ⊢ (dat3 V c).Φ 0 := .rfl
theorem hout3 : (dat3 V c).Φ (Fin.last cfg3.N) ⊢ (Pipeline.ΦA spec3 c : sProp 𝕄) := .rfl

end Cert.KernelIdeal.Hand
-- ==== Proof.KI.Agg4.lean ====
import proofs.«429552_j8443905704047_1_alg».proof.Proof.KI.Agg0
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev scM4_0 : Memref sig .tc .vmem S1024x1024 .f32 := Memref.whole cc4_scratch0

/-- The frame of the region's invariant around the accumulator's assertion `P`. -/
abbrev inv4 (c : Dev nD) (P : sProp 𝕄) : sProp 𝕄 := iprop(iprop(P ∗ Pipeline.scopedRestBut spec4 c [cc4_scratch0]) ∗ (∃ r, prngReg c r))

theorem PhiA4_eq (c : Dev nD) : (Pipeline.ΦA spec4 c : sProp 𝕄) = inv4 c iprop(∃ d, owns c scM4_0 fullShare d) := by
  unfold Pipeline.ΦA; rw [scopedRest4_split]; simp only [scM4_0, owns_whole]; rfl

/-- What the accumulator holds after point `n`: the point's product, added to zero at the first position of a run and to what the point before left elsewhere. -/
def acc4 (c : Dev nD) : (n : ℕ) → n < cfg4.N → Vec F S1024x1024 .f32
  | 0, hn => k4_pay2 (k4_pay1 (F := F)) (iblk4 V c 0 ⟨0, hn⟩) (iblk4 V c 1 ⟨0, hn⟩)
  | n + 1, hn =>
    if (n + 1) % 10 = 0 then k4_pay2 (k4_pay1 (F := F)) (iblk4 V c 0 ⟨n + 1, hn⟩) (iblk4 V c 1 ⟨n + 1, hn⟩)
    else k4_pay2 (acc4 c n (Nat.lt_of_succ_lt hn)) (iblk4 V c 0 ⟨n + 1, hn⟩) (iblk4 V c 1 ⟨n + 1, hn⟩)

theorem acc4_first (c : Dev nD) (t : Fin cfg4.N) (h : t.val % 10 = 0) :
    acc4 V c t.val t.isLt = k4_pay2 (k4_pay1 (F := F)) (iblk4 V c 0 t) (iblk4 V c 1 t) := by
  obtain ⟨_ | n, hn⟩ := t
  exacts [rfl, if_pos h]

theorem acc4_next (c : Dev nD) (t : Fin cfg4.N) (h : t.val % 10 ≠ 0) :
    acc4 V c t.val t.isLt = k4_pay2 (acc4 V c (t.val - 1) (Nat.lt_of_le_of_lt (Nat.sub_le _ _) t.isLt)) (iblk4 V c 0 t) (iblk4 V c 1 t) := by
  obtain ⟨_ | n, hn⟩ := t
  exacts [absurd (Nat.zero_mod _) h, if_neg h]

/-- The invariant before position `n`: what the region is handed before the first point, afterwards the accumulator at what the point before left. -/
def PhiS4 (c : Dev nD) (n : ℕ) (h : n ≤ cfg4.N) : sProp 𝕄 :=
  if hn : n = 0 then Pipeline.ΦA spec4 c else inv4 c (owns c scM4_0 fullShare (acc4 V c (n - 1) (by omega)))

/-- Before any point the invariant yields the accumulator at some contents. -/
theorem PhiS4_any (c : Dev nD) (n : ℕ) (h : n ≤ cfg4.N) :
    PhiS4 V c n h ⊢ inv4 c iprop(∃ d, owns c scM4_0 fullShare d) := by
  unfold PhiS4; split
  · exact (PhiA4_eq c).le
  · unfold inv4
    iintro ⟨⟨Hs, Hr⟩, Hg⟩
    iframe Hr Hg
    iexists _; iexact Hs

/-- The region's proof data: each input keeps its block, the output holds the accumulator rounded, the invariant is `PhiS4`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => k4_pay3 (acc4 V c t.val t.isLt)
  Φ t := PhiS4 V c t.val (Nat.le_of_lt_succ t.isLt)
  q _ := fullShare
  owed _ := 0

theorem A_eq4 (c : Dev nD) (w : Fin cfg4.W) : (dat4 V c).A w = V c (Pipeline.arrRef spec4 w) := rfl

theorem after4_2 (c : Dev nD) (t : Fin cfg4.N) (h : t.val % 10 = 9) : (dat4 V c).after 2 t = k4_pay3 (acc4 V c t.val t.isLt) := rfl

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl

theorem body_obligation4 (c : Dev nD) : BodyObligation (dat4 (F := F) V c) (defs₀ (F := F)) Variants.none () Set.univ := fun t => by
  rw [bigSep_W4, bigSep_W4]
  exact agg_point (h2 := hstage4_0 _) (h3 := hstage4_1 _) (h4 := hstage4_2 _) (h5 := Memref.isWhole_whole _) rfl (first_iff t) (last_iff t) rfl (by simp only [before4_0]; rfl) (by simp only [before4_1]; rfl) rfl
    (PhiS4_any V c t.val (Nat.le_of_lt t.isLt)) (fun h => by show PhiS4 V c t.val (Nat.le_of_lt t.isLt) = _; unfold PhiS4; exact dif_neg fun e => h (by rw [e])) (acc4_first V c t) (acc4_next V c t) rfl rfl rfl
    (fun h => Dat.leavesExact_idle (dat4 V c) 2 t (out_idle t h) (out_kept t h))
    (fun h => by rw [show cfg4.idle 2 (cfg4.grid.coords t) = false from out_live t h]; rfl)

theorem hin4 (c : Dev nD) : (Pipeline.ΦA spec4 c : sProp 𝕄) ⊢ (dat4 V c).Φ 0 := Idealize.SL.BI.Entails.refl _

/-- After the last point the accumulator's named contents are forgotten. -/
theorem hout4 (c : Dev nD) : (dat4 V c).Φ (Fin.last cfg4.N) ⊢ (Pipeline.ΦA spec4 c : sProp 𝕄) := by
  rw [PhiA4_eq]; exact PhiS4_any V c cfg4.N (Nat.le_refl _)

end Cert.KernelIdeal.Hand
end
-- ==== Proof.KI.Proj5.lean ====
import proofs.«429552_j8443905704047_1_alg».proof.Proof.KI.Proj1
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.Sem
open Idealize.ShloMosaic.Pipeline (Dat BodyObligation)
variable {F : FTy → Type} [FloatOps F]
local notation "𝕄" => MT nD τ sig Unit (Elt F) ℕ (UR sig nD τ) ℕ
variable (V : (c : Dev nD) → (b : Ref sig .tc) → Buf (Elt F) ((c : Thread nD τ).loc b)) (c : Dev nD)

/-- Window `w`'s block at grid point `t`: the part of its array, as the region finds it, that the window's index map selects there. -/
def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

/-- What the body leaves in the output's buffer: the layer's value at the three input blocks. -/
def out5_3 (x0 : Vec F S2048x1024 .bf16) (x1 : Vec F S1024x64 .bf16) (x2 : Vec F S1x64 .f32) : Vec F S2048x64 .f32 :=
  k5_pay1 x0 x1 x2

theorem out5_3_eq (x0 : Vec F S2048x1024 .bf16) (x1 : Vec F S1024x64 .bf16) (x2 : Vec F S1x64 .f32) : out5_3 x0 x1 x2 = k5_pay1 x0 x1 x2 := rfl

/-- The region's proof data: the arrays as the region finds them; the body leaves each input at its block and the output at `out5_3` of the three blocks. -/
def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (w : Fin cfg5.W) : (dat5 V c).A w = V c (Pipeline.arrRef spec5 w) := rfl

theorem after5_3 (t : Fin cfg5.N) : (dat5 V c).after 3 t = out5_3 (iblk5 V c 0 t) (iblk5 V c 1 t) (iblk5 V c 2 t) := by
  dsimp only [dat5]

/-- The body leaves every input as it found it, so at each grid point an input's buffer holds that point's block. -/
theorem before5_0 (t d) : (dat5 V c).before 0 t d = iblk5 V c 0 t :=
  ((dat5 V c).before_in_eq_fetched 0 rfl (fun _ => rfl) (fun _ _ _ => rfl) (fun _ => rfl) t d).trans rfl
theorem before5_1 (t d) : (dat5 V c).before 1 t d = iblk5 V c 1 t :=
  ((dat5 V c).before_in_eq_fetched 1 rfl (fun _ => rfl) (fun _ _ _ => rfl) (fun _ => rfl) t d).trans rfl
theorem before5_2 (t d) : (dat5 V c).before 2 t d = iblk5 V c 2 t :=
  ((dat5 V c).before_in_eq_fetched 2 rfl (fun _ => rfl) (fun _ _ _ => rfl) (fun _ => rfl) t d).trans rfl

theorem body_obligation5 : BodyObligation (dat5 (F := F) V c) (defs₀ (F := F)) Variants.none () Set.univ := fun t => by
  rw [bigSep_W5, bigSep_W5, after5_3]
  sl_whnfR [defs₀, Defs.onTc]
  rw [cc5_kernel_eq_skeleton]; unfold cc5_kernel_skel
  exact sound_whole c S2048x1024 S1024x64 S1x64 S2048x64 .bf16 .bf16 .f32 .f32 Set.univ k5_pay1 _ _ _ _ zeros1 zeros1 zeros1 zeros1 _ _ _ _ _ _ _ _ _ (before5_0 V c t) (before5_1 V c t) (before5_2 V c t) _ _

theorem hin5 : (Pipeline.ΦA spec5 c : sProp 𝕄) ⊢ (dat5 V c).Φ 0 := .rfl
theorem hout5 : (dat5 V c).Φ (Fin.last cfg5.N) ⊢ (Pipeline.ΦA spec5 c : sProp 𝕄) := .rfl

end Cert.KernelIdeal.Hand
-- ==== Proof.KI.Run.lean ====
import proofs.«429552_j8443905704047_1_alg».proof.Proof.KI.FrameCondV
import proofs.«429552_j8443905704047_1_alg».proof.Proof.KI.Agg0
import proofs.«429552_j8443905704047_1_alg».proof.Proof.KI.Proj1
import proofs.«429552_j8443905704047_1_alg».proof.Proof.KI.Agg2
import proofs.«429552_j8443905704047_1_alg».proof.Proof.KI.Proj3
import proofs.«429552_j8443905704047_1_alg».proof.Proof.KI.Agg4
import proofs.«429552_j8443905704047_1_alg».proof.Proof.KI.Proj5
import Idealize.ShloMosaic.Lib.Pipeline.FrameSuffix

set_option backward.isDefEq.respectTransparency.types false

noncomputable section

namespace Cert.KernelIdeal.Hand

open Cert.KernelIdeal Cert.KernelIdeal.Gen
open Idealize.ShloMosaic Idealize.ShloMosaic.TcCoe
open Idealize.ShloMosaic.Rounds
open Idealize.ShloMosaic.Pipeline (Dat)

variable {F : FTy → Type} [FloatOps F]

variable (m : (ℓ : Loc nD τ sig) → Buf (Elt F) ℓ)

-- A region's output is a function of the contents it is entered at, which hold the earlier regions' outputs: defined in stages.
abbrev Vr7 : (c : Dev nD) → (b : Ref sig .tc) → Buf (Elt F) ((c : Thread nD τ).loc b) := fun c b => V7 m c b
def o8 (r : Ref sig .tc) (c : Dev nD) : Buf (Elt F) ((c : Thread nD τ).loc r) :=
  Pipeline.withArrays spec0 c (V7 m c) (fun w => (dat0 (Vr7 m) c).arrAt w cfg0.N) (Proc.devRef .tc r)
def outsA : Outs (F := F) := fun _ r c => o8 m r c

abbrev Vr9 : (c : Dev nD) → (b : Ref sig .tc) → Buf (Elt F) ((c : Thread nD τ).loc b) := fun c b => V9 m (outsA m) c b
def o10 (r : Ref sig .tc) (c : Dev nD) : Buf (Elt F) ((c : Thread nD τ).loc r) :=
  Pipeline.withArrays spec1 c (V9 m (outsA m) c) (fun w => (dat1 (Vr9 m) c).arrAt w cfg1.N) (Proc.devRef .tc r)
def outsB : Outs (F := F) := fun J r c => match J with | 10 => o10 m r c | _ => outsA m J r c

abbrev Vr10 : (c : Dev nD) → (b : Ref sig .tc) → Buf (Elt F) ((c : Thread nD τ).loc b) := fun c b => V10 m (outsB m) c b
def o11 (r : Ref sig .tc) (c : Dev nD) : Buf (Elt F) ((c : Thread nD τ).loc r) :=
  Pipeline.withArrays spec2 c (V10 m (outsB m) c) (fun w => (dat2 (Vr10 m) c).arrAt w cfg2.N) (Proc.devRef .tc r)
def outsC : Outs (F := F) := fun J r c => match J with | 11 => o11 m r c | _ => outsB m J r c

abbrev Vr12 : (c : Dev nD) → (b : Ref sig .tc) → Buf (Elt F) ((c : Thread nD τ).loc b) := fun c b => V12 m (outsC m) c b
def o13 (r : Ref sig .tc) (c : Dev nD) : Buf (Elt F) ((c : Thread nD τ).loc r) :=
  Pipeline.withArrays spec3 c (V12 m (outsC m) c) (fun w => (dat3 (Vr12 m) c).arrAt w cfg3.N) (Proc.devRef .tc r)
def outsD : Outs (F := F) := fun J r c => match J with | 13 => o13 m r c | _ => outsC m J r c

abbrev Vr13 : (c : Dev nD) → (b : Ref sig .tc) → Buf (Elt F) ((c : Thread nD τ).loc b) := fun c b => V13 m (outsD m) c b
def o14 (r : Ref sig .tc) (c : Dev nD) : Buf (Elt F) ((c : Thread nD τ).loc r) :=
  Pipeline.withArrays spec4 c (V13 m (outsD m) c) (fun w => (dat4 (Vr13 m) c).arrAt w cfg4.N) (Proc.devRef .tc r)
def outsE : Outs (F := F) := fun J r c => match J with | 14 => o14 m r c | _ => outsD m J r c

abbrev Vr15 : (c : Dev nD) → (b : Ref sig .tc) → Buf (Elt F) ((c : Thread nD τ).loc b) := fun c b => V15 m (outsE m) c b
def o16 (r : Ref sig .tc) (c : Dev nD) : Buf (Elt F) ((c : Thread nD τ).loc r) :=
  Pipeline.withArrays spec5 c (V15 m (outsE m) c) (fun w => (dat5 (Vr15 m) c).arrAt w cfg5.N) (Proc.devRef .tc r)
def outs : Outs (F := F) := fun J r c => match J with | 16 => o16 m r c | _ => outsE m J r c

theorem outs_v49 (c : Dev nD) : outs m 8 main_v49 c = (dat0 (Vr7 m) c).arrAt 2 cfg0.N := by
  show o8 m main_v49 c = _; unfold o8; exact Pipeline.withArrays_arr spec0 launch0.win.arr_inj c _ _ 2
theorem outs_v51 (c : Dev nD) : outs m 10 main_v51 c = (dat1 (Vr9 m) c).arrAt 3 cfg1.N := by
  show o10 m main_v51 c = _; unfold o10; exact Pipeline.withArrays_arr spec1 launch1.win.arr_inj c _ _ 3
theorem outs_v52 (c : Dev nD) : outs m 11 main_v52 c = (dat2 (Vr10 m) c).arrAt 2 cfg2.N := by
  show o11 m main_v52 c = _; unfold o11; exact Pipeline.withArrays_arr spec2 launch2.win.arr_inj c _ _ 2
theorem outs_v54 (c : Dev nD) : outs m 13 main_v54 c = (dat3 (Vr12 m) c).arrAt 3 cfg3.N := by
  show o13 m main_v54 c = _; unfold o13; exact Pipeline.withArrays_arr spec3 launch3.win.arr_inj c _ _ 3
theorem outs_v55 (c : Dev nD) : outs m 14 main_v55 c = (dat4 (Vr13 m) c).arrAt 2 cfg4.N := by
  show o14 m main_v55 c = _; unfold o14; exact Pipeline.withArrays_arr spec4 launch4.win.arr_inj c _ _ 2
theorem outs_v57 (c : Dev nD) : outs m 16 main_v57 c = (dat5 (Vr15 m) c).arrAt 3 cfg5.N := by
  show o16 m main_v57 c = _; unfold o16; exact Pipeline.withArrays_arr spec5 launch5.win.arr_inj c _ _ 3

-- A valuation reads only the outputs of the regions before it, and every stage after a region keeps that region's output.
theorem Vr9_eq (c : Dev nD) (b : Ref sig .tc) : Vr9 m c b = V9 m (outs m) c b := rfl
theorem Vr10_eq (c : Dev nD) (b : Ref sig .tc) : Vr10 m c b = V10 m (outs m) c b := rfl
theorem Vr12_eq (c : Dev nD) (b : Ref sig .tc) : Vr12 m c b = V12 m (outs m) c b := rfl
theorem Vr13_eq (c : Dev nD) (b : Ref sig .tc) : Vr13 m c b = V13 m (outs m) c b := rfl
theorem Vr15_eq (c : Dev nD) (b : Ref sig .tc) : Vr15 m c b = V15 m (outs m) c b := rfl

def pdats : (p : Fin 6) → (c : Dev nD) → Dat τ (Elt F) Unit ℕ (UR sig nD τ) ℕ (cfgs p) c
  | ⟨0, _⟩ => fun c => dat0 (Vr7 m) c
  | ⟨1, _⟩ => fun c => dat1 (Vr9 m) c
  | ⟨2, _⟩ => fun c => dat2 (Vr10 m) c
  | ⟨3, _⟩ => fun c => dat3 (Vr12 m) c
  | ⟨4, _⟩ => fun c => dat4 (Vr13 m) c
  | ⟨5, _⟩ => fun c => dat5 (Vr15 m) c

theorem run_value (ρ : Dev nD → PrngReg) : θ_run defs (onTc (τ := τ) (main (F := F))) ⟨m, fun _ => 0, ρ⟩ (fun r => ∀ c : Dev nD,
      r.2.mem ((c.tc : Thread nD τ).loc main_v58) = V17 m (outs m) c main_v58
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have hm (b : Ref sig .tc) (hb : ¬(Proc.devRef (τ := τ) .tc b).isScoped) : r.2.mem (c, b) = V17 m (outs m) c b :=
      h c b (Finset.mem_filter.mpr ⟨StableHlo.devRef_mem_tcRefs b, hb⟩)
    ⟨hm main_v58 (by decide), (hm main_arg0 (by decide)).trans (V17_main_arg0 m (outs m) c),
      (hm main_arg1 (by decide)).trans (V17_main_arg1 m (outs m) c), (hm main_arg2 (by decide)).trans (V17_main_arg2 m (outs m) c),
      (hm main_arg3 (by decide)).trans (V17_main_arg3 m (outs m) c), (hm main_arg4 (by decide)).trans (V17_main_arg4 m (outs m) c),
      (hm main_arg5 (by decide)).trans (V17_main_arg5 m (outs m) c), (hm main_arg6 (by decide)).trans (V17_main_arg6 m (outs m) c),
      (hm main_arg7 (by decide)).trans (V17_main_arg7 m (outs m) c), (hm main_arg8 (by decide)).trans (V17_main_arg8 m (outs m) c)⟩)
    (frame_cond_v m (outs m) (pdats := pdats m) ρ
      {lf := launch0, hbody := body_obligation0 (Vr7 m), hin := hin0 (Vr7 m), hout := hout0 (Vr7 m), hval := outs_v49 m}
      {lf := launch1, hbody := body_obligation1 (Vr9 m), hin := hin1 (Vr9 m), hout := hout1 (Vr9 m), hval := outs_v51 m}
      {lf := launch2, hbody := body_obligation2 (Vr10 m), hin := hin2 (Vr10 m), hout := hout2 (Vr10 m), hval := outs_v52 m}
      {lf := launch3, hbody := body_obligation3 (Vr12 m), hin := hin3 (Vr12 m), hout := hout3 (Vr12 m), hval := outs_v54 m}
      {lf := launch4, hbody := body_obligation4 (Vr13 m), hin := hin4 (Vr13 m), hout := hout4 (Vr13 m), hval := outs_v55 m}
      {lf := launch5, hbody := body_obligation5 (Vr15 m), hin := hin5 (Vr15 m), hout := hout5 (Vr15 m), hval := outs_v57 m})

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_value m ρ)

end Cert.KernelIdeal.Hand

end
-- ==== Proof.Spec.lean ====
import Idealize.ShloMosaic.PureOps.Ideal
import Idealize.ShloMosaic.Lib.ValueIdx

open scoped BigOperators

noncomputable section

namespace Cert.Spec

abbrev Nn : ℕ := 10000
abbrev Pn : ℕ := 10240
abbrev En : ℕ := 160000

structure Edges where
  s : Fin En → Fin Nn
  d : Fin En → ℕ
  dc : Fin En → Fin Nn
  hdc : ∀ e, d e < Nn → (dc e).val = d e

variable (G : Edges) (ns nd : Fin Nn → EReal)

def adj (v u : Fin Pn) : EReal :=
  0 + ∑ e ∈ Finset.univ.filter (fun e : Fin En => G.d e = v.val ∧ (G.s e).val = u.val), ns (G.s e) * nd (G.dc e)

def padRows {n : ℕ} (x : Fin Nn → Fin n → EReal) (u : Fin Pn) (j : Fin n) : EReal :=
  if h : u.val < Nn then x ⟨u.val, h⟩ j else 0

def kPre {n k : ℕ} (x : Fin Pn → Fin n → EReal) (W : Fin n → Fin k → EReal) (b : Fin k → EReal) (v : Fin Pn) (c : Fin k) : EReal :=
  (∑ j : Fin n, (∑ u : Fin Pn, adj G ns nd v u * x u j) * W j c) + b c

def kLayer {n k : ℕ} (relu : Bool) (x : Fin Pn → Fin n → EReal) (W : Fin n → Fin k → EReal) (b : Fin k → EReal) (v : Fin Pn) (c : Fin k) : EReal :=
  if relu then max (kPre G ns nd x W b v c) 0 else kPre G ns nd x W b v c

def rPre {n k : ℕ} (x : Fin Nn → Fin n → EReal) (W : Fin n → Fin k → EReal) (b : Fin k → EReal) (v : Fin Nn) (c : Fin k) : EReal :=
  (∑ j : Fin n, ((0 + ∑ e ∈ Finset.univ.filter (fun e : Fin En => G.d e = v.val), x (G.s e) j * ns (G.s e)) * nd v) * W j c) + b c

def rLayer {n k : ℕ} (relu : Bool) (x : Fin Nn → Fin n → EReal) (W : Fin n → Fin k → EReal) (b : Fin k → EReal) (v : Fin Nn) (c : Fin k) : EReal :=
  if relu then max (rPre G ns nd x W b v c) 0 else rPre G ns nd x W b v c

def inPad (v : Fin Nn) : Fin Pn := ⟨v.val, Nat.lt_of_lt_of_le v.isLt (by decide)⟩

def kNet (h : Fin Nn → Fin 1024 → EReal) (W1 : Fin 1024 → Fin 1024 → EReal) (b1 : Fin 1024 → EReal)
    (W2 : Fin 1024 → Fin 1024 → EReal) (b2 : Fin 1024 → EReal) (W3 : Fin 1024 → Fin 64 → EReal) (b3 : Fin 64 → EReal)
    (v : Fin Nn) (c : Fin 64) : EReal :=
  kLayer G ns nd false (kLayer G ns nd true (kLayer G ns nd true (padRows h) W1 b1) W2 b2) W3 b3 (inPad v) c

def rNet (h : Fin Nn → Fin 1024 → EReal) (W1 : Fin 1024 → Fin 1024 → EReal) (b1 : Fin 1024 → EReal)
    (W2 : Fin 1024 → Fin 1024 → EReal) (b2 : Fin 1024 → EReal) (W3 : Fin 1024 → Fin 64 → EReal) (b3 : Fin 64 → EReal)
    (v : Fin Nn) (c : Fin 64) : EReal :=
  rLayer G ns nd false (rLayer G ns nd true (rLayer G ns nd true h W1 b1) W2 b2) W3 b3 v c

def Real1 {ι : Type} (f : ι → EReal) : Prop := ∀ i, ∃ r : ℝ, f i = (r : EReal)
def Real2 {ι κ : Type} (f : ι → κ → EReal) : Prop := ∀ i j, ∃ r : ℝ, f i j = (r : EReal)

theorem Real1.exists_eq {ι : Type} {f : ι → EReal} (hf : Real1 f) : ∃ r : ι → ℝ, f = fun i => (r i : EReal) := by
  choose r hr using hf
  exact ⟨r, funext hr⟩

theorem Real2.exists_eq {ι κ : Type} {f : ι → κ → EReal} (hf : Real2 f) :
    ∃ r : ι → κ → ℝ, f = fun i j => (r i j : EReal) := by
  choose r hr using hf
  exact ⟨r, funext fun i => funext fun j => hr i j⟩

theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem coe_max (x y : ℝ) : ((max x y : ℝ) : EReal) = max (x : EReal) (y : EReal) :=
  EReal.coe_strictMono.monotone.map_max

section RealMirror

variable (a b : Fin Nn → ℝ)

def adjR (v u : Fin Pn) : ℝ :=
  ∑ e ∈ Finset.univ.filter (fun e : Fin En => G.d e = v.val ∧ (G.s e).val = u.val), a (G.s e) * b (G.dc e)

theorem adj_coe (v u : Fin Pn) :
    adj G (fun i => (a i : EReal)) (fun i => (b i : EReal)) v u = (adjR G a b v u : EReal) := by
  unfold adj adjR
  rw [zero_add, coe_sum]
  exact Finset.sum_congr rfl fun e _ => (EReal.coe_mul _ _).symm

-- Exchange the sums over the padded column and the edge, collapse the column to the edge's source; an edge into node v has clamped destination v.
theorem agg_eq {n : ℕ} (x : Fin Pn → Fin n → ℝ) (v : Fin Nn) (j : Fin n) :
    ∑ u : Fin Pn, adjR G a b (inPad v) u * x u j
      = (∑ e ∈ Finset.univ.filter (fun e : Fin En => G.d e = v.val), x (inPad (G.s e)) j * a (G.s e)) * b v := by
  have hcol : ∀ u : Fin Pn, adjR G a b (inPad v) u * x u j
      = ∑ e ∈ Finset.univ.filter (fun e : Fin En => G.d e = v.val),
          if (G.s e).val = u.val then a (G.s e) * b (G.dc e) * x u j else 0 := by
    intro u
    unfold adjR
    rw [Finset.sum_mul, ← Finset.filter_filter, Finset.sum_filter]
    rfl
  have hedge : ∀ e ∈ Finset.univ.filter (fun e : Fin En => G.d e = v.val),
      (∑ u : Fin Pn, if (G.s e).val = u.val then a (G.s e) * b (G.dc e) * x u j else 0)
        = x (inPad (G.s e)) j * a (G.s e) * b v := by
    intro e he
    have hd : G.d e = v.val := (Finset.mem_filter.mp he).2
    rw [Fintype.sum_eq_single (inPad (G.s e)) fun u hu => if_neg fun h => hu (Fin.ext h.symm),
      if_pos (show (G.s e).val = (inPad (G.s e)).val from rfl), show G.dc e = v from Fin.ext ((G.hdc e (hd ▸ v.isLt)).trans hd)]
    ring
  rw [Finset.sum_congr rfl fun u _ => hcol u, Finset.sum_comm, Finset.sum_congr rfl hedge, Finset.sum_mul]

end RealMirror

-- One layer on real entries: the dense output is real, and on the node rows it is the sparse output of the node rows of the input.
theorem layer_step {n k : ℕ} (relu : Bool) (hns : Real1 ns) (hnd : Real1 nd)
    {x : Fin Pn → Fin n → EReal} {y : Fin Nn → Fin n → EReal} (hx : Real2 x) (hxy : ∀ u j, x (inPad u) j = y u j)
    {W : Fin n → Fin k → EReal} {bv : Fin k → EReal} (hW : Real2 W) (hb : Real1 bv) :
    Real2 (kLayer G ns nd relu x W bv)
      ∧ ∀ v c, kLayer G ns nd relu x W bv (inPad v) c = rLayer G ns nd relu y W bv v c := by
  obtain ⟨a, rfl⟩ := hns.exists_eq
  obtain ⟨b, rfl⟩ := hnd.exists_eq
  obtain ⟨xr, rfl⟩ := hx.exists_eq
  obtain ⟨Wr, rfl⟩ := hW.exists_eq
  obtain ⟨br, rfl⟩ := hb.exists_eq
  obtain rfl : (fun u j => ((xr (inPad u) j : ℝ) : EReal)) = y := funext fun u => funext fun j => hxy u j
  have hk : ∀ v c, kPre G (fun i => (a i : EReal)) (fun i => (b i : EReal)) (fun u j => (xr u j : EReal))
      (fun j c => (Wr j c : EReal)) (fun c => (br c : EReal)) v c
        = ((∑ j, (∑ u, adjR G a b v u * xr u j) * Wr j c) + br c : ℝ) := fun v c => by
    simp only [kPre, EReal.coe_add, coe_sum, EReal.coe_mul, adj_coe]
  refine ⟨fun v c => ?_, fun v c => ?_⟩
  · unfold kLayer
    rw [hk]
    cases relu
    exacts [⟨_, rfl⟩, ⟨_, (coe_max _ _).symm⟩]
  · unfold kLayer rLayer
    rw [hk]
    simp only [rPre, zero_add, agg_eq, EReal.coe_add, coe_sum, EReal.coe_mul]

-- Distributing a factor over a sum needs real entries; on them the dense and the sparse arrangement agree layer by layer.
theorem kNet_eq_rNet (hns : Real1 ns) (hnd : Real1 nd)
    (h : Fin Nn → Fin 1024 → EReal) (W1 : Fin 1024 → Fin 1024 → EReal) (b1 : Fin 1024 → EReal)
    (W2 : Fin 1024 → Fin 1024 → EReal) (b2 : Fin 1024 → EReal) (W3 : Fin 1024 → Fin 64 → EReal) (b3 : Fin 64 → EReal)
    (hh : Real2 h) (hW1 : Real2 W1) (hb1 : Real1 b1) (hW2 : Real2 W2) (hb2 : Real1 b2) (hW3 : Real2 W3) (hb3 : Real1 b3)
    (v : Fin Nn) (c : Fin 64) :
    kNet G ns nd h W1 b1 W2 b2 W3 b3 v c = rNet G ns nd h W1 b1 W2 b2 W3 b3 v c := by
  have hp : Real2 (padRows h) := fun u j => by
    unfold padRows
    split
    exacts [hh _ _, ⟨0, rfl⟩]
  obtain ⟨x1, e1⟩ := layer_step G ns nd true hns hnd hp (fun u j => dif_pos u.isLt) hW1 hb1
  obtain ⟨x2, e2⟩ := layer_step G ns nd true hns hnd x1 e1 hW2 hb2
  exact (layer_step G ns nd false hns hnd x2 e2 hW3 hb3).2 v c

end Cert.Spec

end
-- ==== Proof.LibMask.lean ====
import Idealize.ShloMosaic.PureOps.Ideal
import Idealize.ShloMosaic.Lib.ValueIdx
import Idealize.ShloMosaic.Lib.StableHlo.Predicate
import Idealize.ShloMosaic.Lib.ReduceAll

namespace Cert.MaskLib

open Idealize.ShloMosaic

-- Replacing the negative words of a vector leaves a vector of non-negative words as it is.
theorem wrap_id {S : Shape} (idx z n : IVec S 32) (hz : ∀ i, z i = 0#32) (h0 : ∀ i, 0 ≤ (idx i).toInt) :
    select (cmpi .slt idx z) n idx = idx := by
  funext i
  show Scalar.select (IntOp.cmpi .slt (idx i) (z i)) (n i) (idx i) = idx i
  refine if_neg fun (hc : IntOp.cmpi .slt (idx i) (z i) = 1#1) => ?_
  rw [IntOp.cmpi_slt, hz i, show (0#32 : BitVec 32).toInt = 0 by decide] at hc
  exact absurd (h0 i) (by omega)

end Cert.MaskLib
-- ==== Proof.Decode.lean ====
import proofs.«429552_j8443905704047_1_alg».proof.Proof.Spec
import proofs.«429552_j8443905704047_1_alg».proof.Proof.LibMask
import Idealize.ShloMosaic.PureOps.Ideal
import Idealize.ShloMosaic.Lib.ValueIdx

open scoped BigOperators

noncomputable section

namespace Cert.Decode

open Idealize.ShloMosaic Idealize.ShloMosaic.ValueIdx Cert.Spec

abbrev SE : Shape := ⟨1, ![160000]⟩

def arr2 {A B : ℕ} (x : (⟨2, ![A, B]⟩ : Shape).Idx → EReal) (p : Fin A) (q : Fin B) : EReal := x (ix2 p q)

def arr1 {A : ℕ} (x : (⟨1, ![A]⟩ : Shape).Idx → EReal) (p : Fin A) : EReal := x (ix1 p)

def SrcOk (src : IVec SE 32) : Prop := ∀ e : Fin 160000, 0 ≤ (src (ix1 e)).toInt ∧ (src (ix1 e)).toInt < 10000

def DstOk (dst : IVec SE 32) : Prop := ∀ e : Fin 160000, 0 ≤ (dst (ix1 e)).toInt

def edges (src dst : IVec SE 32) (hs : SrcOk src) : Edges where
  s e := ⟨((src (ix1 e)).toInt).toNat, by have := hs e; show _ < 10000; omega⟩
  d e := ((dst (ix1 e)).toInt).toNat
  dc e := ⟨min ((dst (ix1 e)).toInt).toNat 9999, by show _ < 10000; omega⟩
  hdc e h := by
    have h' : ((dst (ix1 e)).toInt).toNat < 10000 := h
    show min ((dst (ix1 e)).toInt).toNat 9999 = ((dst (ix1 e)).toInt).toNat
    omega

def deg (idx : IVec SE 32) (v : Fin 10000) : EReal :=
  Ideal.ofBits .f32 0x00000000#32
    + ∑ e ∈ Finset.univ.filter (fun e : Fin 160000 => (idx (ix1 e)).toInt = (v.val : ℤ)), Ideal.ofBits .f32 0x3F800000#32

def nrm (idx : IVec SE 32) (v : Fin 10000) : EReal :=
  Ideal.pow (max (Ideal.ofBits .f32 0x3F800000#32) (deg idx v)) (Ideal.ofBits .f32 0xBF000000#32)

-- A word whose exponent field is not all ones denotes a real number.
theorem ofBits_real (b : BitVec 32) (h : ¬ (b.extractLsb' 23 8).toNat = 2 ^ 8 - 1) : ∃ r : ℝ, Ideal.ofBits .f32 b = (r : EReal) := by
  show ∃ r : ℝ, Ideal.ieee 8 23 b = (r : EReal)
  unfold Ideal.ieee
  simp only []
  rw [if_neg h]
  exact ⟨_, (apply_ite _ _ _ _).symm⟩

-- The scale is a real power of a maximum of real numbers.
theorem nrm_real (idx : IVec SE 32) : Real1 (nrm idx) := by
  intro v
  obtain ⟨z, hz⟩ := ofBits_real 0x00000000#32 (by decide)
  obtain ⟨o, ho⟩ := ofBits_real 0x3F800000#32 (by decide)
  obtain ⟨m, hm⟩ := ofBits_real 0xBF000000#32 (by decide)
  refine ⟨Real.rpow (max o (z + ∑ _e ∈ Finset.univ.filter (fun e : Fin 160000 => (idx (ix1 e)).toInt = (v.val : ℤ)), o)) m, ?_⟩
  unfold nrm deg
  rw [hz, ho, hm, ← coe_sum, ← EReal.coe_add, ← coe_max]
  rfl

theorem d_eq_iff (src dst : IVec SE 32) (hs : SrcOk src) (hd : DstOk dst) (e : Fin 160000) (n : ℕ) :
    (edges src dst hs).d e = n ↔ (dst (ix1 e)).toInt = (n : ℤ) := by
  have := hd e
  show ((dst (ix1 e)).toInt).toNat = n ↔ _
  omega

theorem s_eq_iff (src dst : IVec SE 32) (hs : SrcOk src) (e : Fin 160000) (n : ℕ) :
    ((edges src dst hs).s e).val = n ↔ (src (ix1 e)).toInt = (n : ℤ) := by
  have := hs e
  show ((src (ix1 e)).toInt).toNat = n ↔ _
  omega

end Cert.Decode

end
-- ==== Proof.KI.HostValue.lean ====
import proofs.«429552_j8443905704047_1_alg».proof.Proof.Gen.KernelIdeal.Regions
import proofs.«429552_j8443905704047_1_alg».proof.Proof.Spec
import proofs.«429552_j8443905704047_1_alg».proof.Proof.Decode
import Idealize.ShloMosaic.PureOps.Ideal.Laws
import Idealize.ShloMosaic.Lib.ValueLayout
import Idealize.ShloMosaic.Lib.KernelVsHost
import Idealize.ShloMosaic.Lib.Tactic

noncomputable section

namespace Cert.KernelIdeal.Val

open Cert.KernelIdeal Cert.KernelIdeal.Gen
open Idealize.ShloMosaic Idealize.ShloMosaic.TcCoe Idealize.ShloMosaic.ValueIdx
open Cert.Decode

variable (m : (ℓ : Loc nD τ sig) → Buf (Elt Ideal) ℓ) (outs : Outs (F := Ideal)) (c : Dev nD)

-- A change of float format is the identity on extended reals.
theorem hostW1 (i : S1024x1024.Idx) :
    (V9 m outs c main_v46 : S1024x1024.Idx → EReal) i = m ((c : Thread nD τ).loc main_arg3) i := by
  have e : (V7 m c main_v46 : S1024x1024.Idx → EReal)
      = truncf (F := Ideal) .bf16 (V6 m c main_arg3 : S1024x1024.Idx → EReal) bitsLt_bf16_f32 := by
    dsimp only [V7, hostOps0_6]; after_results
  rw [V9_of, V8_of, e, V6_of, V5_of, V4_of, V3_of, V2_of, V1_of]
  · rfl
  all_goals decide

theorem hostW2 (i : S1024x1024.Idx) :
    (V12 m outs c main_v47 : S1024x1024.Idx → EReal) i = m ((c : Thread nD τ).loc main_arg5) i := by
  have e : (V7 m c main_v47 : S1024x1024.Idx → EReal)
      = truncf (F := Ideal) .bf16 (V6 m c main_arg5 : S1024x1024.Idx → EReal) bitsLt_bf16_f32 := by
    dsimp only [V7, hostOps0_6]; after_results
  rw [V12_of, V11_of, V10_of, V9_of, V8_of, e, V6_of, V5_of, V4_of, V3_of, V2_of, V1_of]
  · rfl
  all_goals decide

theorem hostW3 (i : S1024x64.Idx) :
    (V15 m outs c main_v48 : S1024x64.Idx → EReal) i = m ((c : Thread nD τ).loc main_arg7) i := by
  have e : (V7 m c main_v48 : S1024x64.Idx → EReal)
      = truncf (F := Ideal) .bf16 (V6 m c main_arg7 : S1024x64.Idx → EReal) bitsLt_bf16_f32 := by
    dsimp only [V7, hostOps0_6]; after_results
  rw [V15_of, V14_of, V13_of, V12_of, V11_of, V10_of, V9_of, V8_of, e, V6_of, V5_of, V4_of, V3_of, V2_of, V1_of]
  · rfl
  all_goals decide

-- A vector reshaped into one row keeps its entries in order.
theorem hostB1 (k : Fin 1024) :
    (V9 m outs c main_v50 : S1x1024.Idx → EReal) (ix2 (0 : Fin 1) k) = m ((c : Thread nD τ).loc main_arg4) (ix1 k) := by
  dsimp only [V9, hostOps1]; after_results
  rw [V8_of, V7_of, V6_of, V5_of, V4_of, V3_of, V2_of, V1_of]
  · exact shapeCast_a_1a_apply _ _ 0 k
  all_goals decide

theorem hostB2 (k : Fin 1024) :
    (V12 m outs c main_v53 : S1x1024.Idx → EReal) (ix2 (0 : Fin 1) k) = m ((c : Thread nD τ).loc main_arg6) (ix1 k) := by
  dsimp only [V12, hostOps3]; after_results
  rw [V11_of, V10_of, V9_of, V8_of, V7_of, V6_of, V5_of, V4_of, V3_of, V2_of, V1_of]
  · exact shapeCast_a_1a_apply _ _ 0 k
  all_goals decide

theorem hostB3 (k : Fin 64) :
    (V15 m outs c main_v56 : S1x64.Idx → EReal) (ix2 (0 : Fin 1) k) = m ((c : Thread nD τ).loc main_arg8) (ix1 k) := by
  dsimp only [V15, hostOps5]; after_results
  rw [V14_of, V13_of, V12_of, V11_of, V10_of, V9_of, V8_of, V7_of, V6_of, V5_of, V4_of, V3_of, V2_of, V1_of]
  · exact shapeCast_a_1a_apply _ _ 0 k
  all_goals decide

-- A slice from row zero reads the same row of its operand.
theorem hostOut (v : Fin 10000) (k : Fin 64) :
    (V17 m outs c main_v58 : S10000x64.Idx → EReal) (ix2 v k)
      = (V16 m outs c main_v57 : S10240x64.Idx → EReal) (ix2 (Cert.Spec.inPad v) k) := by
  dsimp only [V17, hostOps6]; after_results
  exact slice2_axis0_apply 0 _ _ v k _ (Nat.zero_add _).symm

theorem v44_eq : (V6 m c main_v44 : S10240x1024.Idx → EReal)
    = pad S10240x1024 ![0, 0] ![240, 0] ![0, 0] (V5 m c main_arg0 : S10000x1024.Idx → EReal)
        (sitofp (F := Ideal) .f32 (constantI S_ 32 0#32)) pads_S10000x1024_S10240x1024_02400_000 h_S_ := by
  dsimp only [V6, hostOps0_5]; after_results_simp <;> rfl

-- Rows below 10000 are the argument's; the rest hold the integer zero converted to a float, which is zero.
theorem hostX (u : Fin 10240) (j : Fin 1024) :
    (V7 m c main_v45 : S10240x1024.Idx → EReal) (ix2 u j)
      = Cert.Spec.padRows (arr2 (m ((c : Thread nD τ).loc main_arg0) : S10000x1024.Idx → EReal)) u j := by
  have e : (V7 m c main_v45 : S10240x1024.Idx → EReal)
      = truncf (F := Ideal) .bf16 (V6 m c main_v44 : S10240x1024.Idx → EReal) bitsLt_bf16_f32 := by
    dsimp only [V7, hostOps0_6]; after_results
  rw [e, v44_eq, V5_of, V4_of, V3_of, V2_of, V1_of, truncf_apply]
  · unfold Cert.Spec.padRows arr2
    by_cases hlt : u.val < 10000
    · rw [dif_pos hlt]
      refine pad_apply_of_inside _ _ _ _ _ pads_S10000x1024_S10240x1024_02400_000 _ _ (ix2 ⟨u.val, hlt⟩ j) fun a => ?_
      match a with
      | ⟨0, _⟩ => show u.val = 0 + u.val * (0 + 1); omega
      | ⟨1, _⟩ => show j.val = 0 + j.val * (0 + 1); omega
    · rw [dif_neg hlt]
      refine (pad_apply_of_not_inside _ _ _ _ _ pads_S10000x1024_S10240x1024_02400_000 _ (ix2 u j) (0 : Fin 2) ?_).trans ?_
      · rintro ⟨_, _, h3⟩
        have h3' : (u.val - 0) / (0 + 1) < 10000 := h3
        omega
      · show ((((0#32 : BitVec 32).toInt : ℤ) : ℝ) : EReal) = 0
        simp
  all_goals decide

end Cert.KernelIdeal.Val

end
-- ==== Proof.LibScatter.lean ====
import Idealize.ShloMosaic.PureOps.Ideal
import Idealize.ShloMosaic.Lib.ValueIdx
import Idealize.ShloMosaic.Lib.ValueIdxRank1
import Idealize.ShloMosaic.Lib.StableHlo.Predicate

noncomputable section

open scoped BigOperators

namespace Cert.ScatterLib

open Idealize.ShloMosaic Idealize.ShloMosaic.ValueIdx Idealize.ShloMosaic.StableHlo.Predicate

-- An update lands at `i` exactly when, on every axis, its unclamped start plus its window coordinate is `i`'s coordinate.
theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · next h =>
    rw [Option.some.injEq, funext_iff]
    refine forall_congr' fun a => ?_
    rw [Fin.ext_iff]
    show (d.start j idx a + d.window j a).toNat = (i a).val ↔ _
    have := (h a).1
    omega
  · next h =>
    refine iff_of_false (fun heq => by cases heq) fun hall => h fun a => ?_
    have := hall a
    have := (i a).isLt
    omega

-- On an axis the index words name, the start is the word read signed.
theorem start_eq {s si u : Shape} {w : Nat} (d : ScatterDims s si u) (j : u.Idx) (idx : IVec si w) {a : Fin s.rank}
    (ha : a ∈ d.scatterDimsToOperandDims) {k : si.Idx} (hk : d.siIdx j ⟨_, List.idxOf_lt_length_iff.2 ha⟩ = k) :
    d.start j idx a = (idx k).toInt := by
  unfold ScatterDims.start
  rw [dif_pos ha, hk]

theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

section Rows
variable {N n C w : Nat} {φ : FTy} (d : ScatterDims ⟨2, ![N, C]⟩ ⟨2, ![n, 1]⟩ ⟨2, ![n, C]⟩)
    (huw : d.updateWindowDims = [1]) (hiw : d.insertedWindowDims = [0]) (hsd : d.scatterDimsToOperandDims = [0])
    (hiv : d.indexVectorDim = 1)
include huw hiw hsd hiv

-- A segment sum of a matrix's rows: element (v, j) gains update (e, j) of every row e whose index word is v.
theorem scatterAdd_rows (x : FVec Ideal ⟨2, ![N, C]⟩ φ) (idx : IVec ⟨2, ![n, 1]⟩ w)
    (upd : FVec Ideal ⟨2, ![n, C]⟩ φ) (v : Fin N) (j : Fin C) :
    Host.scatterAdd (F := Ideal) d x idx upd (ix2 v j)
      = x (ix2 v j) + ∑ e ∈ Finset.univ.filter (fun e : Fin n => (idx (ix2 e 0)).toInt = (v.val : ℤ)), upd (ix2 e j) := by
  show _ + ∑ j' ∈ Finset.univ.filter (fun j' => d.resultIdx? j' idx = some (ix2 v j)), upd j' = _
  rw [Finset.sum_filter, sum_idx2, Finset.sum_filter]
  refine congrArg _ (Finset.sum_congr rfl fun e _ => ?_)
  have hiff : ∀ c, d.resultIdx? (ix2 e c) idx = some (ix2 v j) ↔ ((idx (ix2 e 0)).toInt = (v.val : ℤ) ∧ c = j) := by
    intro c
    obtain ⟨uw, iw, sd, iv, wf⟩ := d
    dsimp only at huw hiw hsd hiv
    subst huw hiw hsd hiv
    rw [resultIdx?_eq_some_iff, Fin.forall_fin_two,
      start_eq _ _ idx (a := 0) (List.mem_singleton.mpr rfl) (k := ix2 e 0) (eq_ix2 _), Fin.ext_iff]
    show _ + ((0 : ℕ) : ℤ) = (v.val : ℤ) ∧ (0 : ℤ) + ((c.val : ℕ) : ℤ) = ((j.val : ℕ) : ℤ) ↔ _
    omega
  simp only [hiff]
  by_cases hQ : (idx (ix2 e 0)).toInt = (v.val : ℤ) <;> simp [hQ]

end Rows

section Points
variable {P Q n w : Nat} {φ : FTy} (d : ScatterDims ⟨2, ![P, Q]⟩ ⟨2, ![n, 2]⟩ ⟨1, ![n]⟩)
    (huw : d.updateWindowDims = []) (hiw : d.insertedWindowDims = [0, 1]) (hsd : d.scatterDimsToOperandDims = [0, 1])
    (hiv : d.indexVectorDim = 1)
include huw hiw hsd hiv

-- Accumulating values at positions of a matrix: element (v, u) gains every update whose two index words are v and u.
theorem scatterAdd_points (x : FVec Ideal ⟨2, ![P, Q]⟩ φ) (idx : IVec ⟨2, ![n, 2]⟩ w)
    (upd : FVec Ideal ⟨1, ![n]⟩ φ) (v : Fin P) (u : Fin Q) :
    Host.scatterAdd (F := Ideal) d x idx upd (ix2 v u)
      = x (ix2 v u) + ∑ e ∈ Finset.univ.filter (fun e : Fin n =>
          (idx (ix2 e 0)).toInt = (v.val : ℤ) ∧ (idx (ix2 e 1)).toInt = (u.val : ℤ)), upd (ix1 e) := by
  show _ + ∑ j' ∈ Finset.univ.filter (fun j' => d.resultIdx? j' idx = some (ix2 v u)), upd j' = _
  rw [Finset.sum_filter, sum_idx1, Finset.sum_filter]
  refine congrArg _ (Finset.sum_congr rfl fun e _ => if_congr ?_ rfl rfl)
  obtain ⟨uw, iw, sd, iv, wf⟩ := d
  dsimp only at huw hiw hsd hiv
  subst huw hiw hsd hiv
  rw [resultIdx?_eq_some_iff, Fin.forall_fin_two,
    start_eq _ _ idx (a := 0) (List.mem_cons_self ..) (k := ix2 e 0) (eq_ix2 _),
    start_eq _ _ idx (a := 1) (List.mem_cons_of_mem _ (List.mem_cons_self ..)) (k := ix2 e 1) (eq_ix2 _)]
  show _ + ((0 : ℕ) : ℤ) = (v.val : ℤ) ∧ _ + ((0 : ℕ) : ℤ) = (u.val : ℤ) ↔ _
  omega

end Points

section Vector
variable {N n w : Nat} {φ : FTy} (d : ScatterDims ⟨1, ![N]⟩ ⟨2, ![n, 1]⟩ ⟨1, ![n]⟩)
    (huw : d.updateWindowDims = []) (hiw : d.insertedWindowDims = [0]) (hsd : d.scatterDimsToOperandDims = [0])
    (hiv : d.indexVectorDim = 1)
include huw hiw hsd hiv

-- A segment sum of a vector: element v gains every update whose index word is v.
theorem scatterAdd_vector (x : FVec Ideal ⟨1, ![N]⟩ φ) (idx : IVec ⟨2, ![n, 1]⟩ w)
    (upd : FVec Ideal ⟨1, ![n]⟩ φ) (v : Fin N) :
    Host.scatterAdd (F := Ideal) d x idx upd (ix1 v)
      = x (ix1 v) + ∑ e ∈ Finset.univ.filter (fun e : Fin n => (idx (ix2 e 0)).toInt = (v.val : ℤ)), upd (ix1 e) := by
  show _ + ∑ j' ∈ Finset.univ.filter (fun j' => d.resultIdx? j' idx = some (ix1 v)), upd j' = _
  rw [Finset.sum_filter, sum_idx1, Finset.sum_filter]
  refine congrArg _ (Finset.sum_congr rfl fun e _ => if_congr ?_ rfl rfl)
  obtain ⟨uw, iw, sd, iv, wf⟩ := d
  dsimp only at huw hiw hsd hiv
  subst huw hiw hsd hiv
  rw [resultIdx?_eq_some_iff, Fin.forall_fin_one,
    start_eq _ _ idx (a := 0) (List.mem_singleton.mpr rfl) (k := ix2 e 0) (eq_ix2 _)]
  show _ + ((0 : ℕ) : ℤ) = (v.val : ℤ) ↔ _
  omega

end Vector

section Gather
variable {α : Type} {N n C w : Nat} (d : GatherDims ⟨2, ![N, C]⟩ ⟨2, ![n, 1]⟩ ⟨2, ![n, C]⟩)
    (hod : d.offsetDims = [1]) (hcd : d.collapsedSliceDims = [0]) (hob : d.operandBatchingDims = [])
    (hsm : d.startIndexMap = [0]) (hiv : d.indexVectorDim = 1)
    (x : (⟨2, ![N, C]⟩ : Shape).Idx → α) (idx : IVec ⟨2, ![n, 1]⟩ w) (e : Fin n) (j : Fin C)
include hod hcd hob hsm hiv

-- Taking rows of a matrix by a column of index words in range: row e of the result is the row its word names.
theorem gather_rows (h0 : 0 ≤ (idx (ix2 e 0)).toInt) (hlt : (idx (ix2 e 0)).toInt < (N : ℤ)) :
    Host.gather d x idx (ix2 e j) = x (ix2 ⟨(idx (ix2 e 0)).toInt.toNat, by omega⟩ j) := by
  unfold Host.gather
  congr 1
  funext a
  refine Fin.ext ?_
  have hsl : d.sliceSizes 0 = 1 := d.slice_collapsed 0 (by rw [hcd]; exact List.mem_singleton.mpr rfl)
  obtain ⟨od, cd, ob, sb, sm, iv, ss, wf⟩ := d
  dsimp only at hod hcd hob hsm hiv hsl
  subst hod hcd hob hsm hiv
  match a with
  | ⟨0, _⟩ =>
    show GatherDims.start _ (ix2 e j) idx 0 + GatherDims.batchCoord _ (ix2 e j) 0 + GatherDims.offCoord _ (ix2 e j) 0
      = (idx (ix2 e 0)).toInt.toNat
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    show min (idx _).toInt.toNat (N - ss 0) = _
    rw [hsl, show GatherDims.siIdx _ (ix2 e j) _ = ix2 e 0 from eq_ix2 _]
    exact Nat.min_eq_left (by omega)
  | ⟨1, _⟩ =>
    show GatherDims.start _ (ix2 e j) idx 1 + GatherDims.batchCoord _ (ix2 e j) 1 + j.val = j.val
    rw [GatherDims.batchCoord_eq_zero _ _ _ List.not_mem_nil]
    exact Nat.zero_add _

end Gather

section GatherVector
variable {α : Type} {N n w : Nat} (d : GatherDims ⟨1, ![N]⟩ ⟨2, ![n, 1]⟩ ⟨1, ![n]⟩)
    (hod : d.offsetDims = []) (hcd : d.collapsedSliceDims = [0]) (hob : d.operandBatchingDims = [])
    (hsm : d.startIndexMap = [0]) (hiv : d.indexVectorDim = 1)
    (x : (⟨1, ![N]⟩ : Shape).Idx → α) (idx : IVec ⟨2, ![n, 1]⟩ w) (e : Fin n)
include hod hcd hob hsm hiv

-- Taking elements of a vector by a column of non-negative index words: element e of the result is the one its word, cut off at the last position, names.
theorem gather_vector_nonneg (hN : 0 < N) (r : ℕ) (hr : (idx (ix2 e 0)).toInt = (r : ℤ)) :
    Host.gather d x idx (ix1 e) = x (ix1 ⟨min r (N - 1), by omega⟩) := by
  have h := gather_take d hcd hob hsm hiv x idx e hN
  rw [show Shape.Idx.ofFin e = ix1 e from eq_ix1 _] at h
  refine h.trans (congrArg x ((eq_ix1 _).trans (congrArg ix1 (Fin.ext ?_))))
  show min (idx (ixP e)).toInt.toNat (N - 1) = min r (N - 1)
  rw [show ixP e = ix2 e 0 from eq_ix2 _, hr, Int.toNat_natCast]

theorem gather_vector (h0 : 0 ≤ (idx (ix2 e 0)).toInt) (hlt : (idx (ix2 e 0)).toInt < (N : ℤ)) :
    Host.gather d x idx (ix1 e) = x (ix1 ⟨(idx (ix2 e 0)).toInt.toNat, by omega⟩) :=
  (gather_vector_nonneg d hod hcd hob hsm hiv x idx e (by omega) _ (Int.toNat_of_nonneg h0).symm).trans
    (congrArg (fun k => x (ix1 k)) (Fin.ext (Nat.min_eq_left (by omega))))

end GatherVector

end Cert.ScatterLib

end
-- ==== Proof.KI.HostAdj.lean ====
import proofs.«429552_j8443905704047_1_alg».proof.Proof.Gen.KernelIdeal.Regions
import proofs.«429552_j8443905704047_1_alg».proof.Proof.Spec
import proofs.«429552_j8443905704047_1_alg».proof.Proof.Decode
import proofs.«429552_j8443905704047_1_alg».proof.Proof.LibScatter
import proofs.«429552_j8443905704047_1_alg».proof.Proof.LibMask
import Idealize.ShloMosaic.PureOps.Ideal.Laws
import Idealize.ShloMosaic.Lib.Pipeline.Value
import Idealize.ShloMosaic.Lib.Tactic

noncomputable section

namespace Cert.KernelIdeal.Val

open Cert.KernelIdeal Cert.KernelIdeal.Gen
open Idealize.ShloMosaic Idealize.ShloMosaic.TcCoe Idealize.ShloMosaic.ValueIdx
open Cert.Decode Cert.ScatterLib

variable (m : (ℓ : Loc nD τ sig) → Buf (Elt Ideal) ℓ) (c : Dev nD)

abbrev aSrc : IVec S160000 32 := m ((c.tc : Thread nD τ).loc main_arg1)
abbrev aDst : IVec S160000 32 := m ((c.tc : Thread nD τ).loc main_arg2)

variable (k : BitVec 32) (x src dst : IVec S160000 32) (y ns cd : FVec Ideal S10000 .f32)

def colTerm : IVec S160000x1 32 :=
  broadcastInDim S160000x1 ![0] bcast_S160000_S160000x1_0 x

-- The count of edges per node: ones added into zeros.
def degTerm : FVec Ideal S10000 .f32 :=
  Host.scatterAdd (F := Ideal) scatter_S10000_S160000x1_S160000_n_0_0_1
    (broadcastInDim S10000 ![] bcast_S_S10000 (constant (F := Ideal) S_ .f32 0x00000000#32))
    (colTerm x)
    (broadcastInDim S160000 ![] bcast_S_S160000 (constant (F := Ideal) S_ .f32 0x3F800000#32))

def clipTerm : FVec Ideal S10000 .f32 :=
  maximumf (broadcastInDim S10000 ![] bcast_S_S10000 (constant (F := Ideal) S_ .f32 0x3F800000#32)) (degTerm x)

def rsqrtTerm : FVec Ideal S10000 .f32 :=
  Host.powf y (broadcastInDim S10000 ![] bcast_S_S10000 (constant (F := Ideal) S_ .f32 0xBF000000#32))

def wrapTerm : IVec S160000 32 :=
  select (cmpi .slt x (broadcastInDim S160000 ![] bcast_S_S160000 (constantI S_ 32 0#32)))
    (addi x (broadcastInDim S160000 ![] bcast_S_S160000 (constantI S_ 32 k))) x

-- The per-edge weight: the source scale at the source node times the destination scale at the clamped destination.
def prodTerm : FVec Ideal S160000 .f32 :=
  mulf (Host.gather gather_S10000_S160000x1_S160000_n_0_n_n_0_1_1 ns (colTerm (wrapTerm 10000#32 src)))
    (Host.gather gather_S10000_S160000x1_S160000_n_0_n_n_0_1_1 (rsqrtTerm cd) (colTerm (wrapTerm 10000#32 dst)))

def pairTerm : IVec S160000x2 32 :=
  concatenate S160000x2 1 [⟨S160000x1, colTerm (wrapTerm 10240#32 dst)⟩, ⟨S160000x1, colTerm (wrapTerm 10240#32 src)⟩]
    concatenates_S160000x1_S160000x1_S160000x2_d1

-- The dense matrix: the weights added at their index pairs into zeros.
def adjTerm : FVec Ideal S10240x10240 .bf16 :=
  truncf (F := Ideal) .bf16
    (Host.scatterAdd (F := Ideal) scatter_S10240x10240_S160000x2_S160000_n_01_01_1
      (broadcastInDim S10240x10240 ![] bcast_S_S10240x10240 (constant (F := Ideal) S_ .f32 0x00000000#32))
      (pairTerm src dst) (prodTerm src dst ns cd))
    bitsLt_bf16_f32

theorem colTerm_apply (e : Fin 160000) : colTerm x (ix2 e 0) = x (ix1 e) :=
  congrArg x (funext fun a => match a with | ⟨0, _⟩ => Fin.ext rfl)

-- On non-negative words the wrap is the identity.
theorem wrapTerm_id (h0 : ∀ e : Fin 160000, 0 ≤ (x (ix1 e)).toInt) : wrapTerm k x = x :=
  Cert.MaskLib.wrap_id x _ _ (fun _ => rfl) (fun i => by rw [eq_ix1 i]; exact h0 _)

theorem degTerm_apply (w : Fin 10000) : degTerm x (ix1 w) = deg x w := by
  unfold degTerm
  rw [scatterAdd_vector scatter_S10000_S160000x1_S160000_n_0_0_1 rfl rfl rfl rfl]
  refine congrArg (Ideal.ofBits .f32 0x00000000#32 + ·)
    (Finset.sum_congr (Finset.filter_congr fun e _ => ?_) fun _ _ => rfl)
  rw [colTerm_apply]

theorem rsqrtTerm_apply (i : S10000.Idx) : rsqrtTerm y i = Ideal.pow (y i) (Ideal.ofBits .f32 0xBF000000#32) := rfl

theorem clipTerm_apply (i : S10000.Idx) : clipTerm x i = max (Ideal.ofBits .f32 0x3F800000#32) (degTerm x i) := rfl

theorem nrmTerm_apply (w : Fin 10000) : rsqrtTerm (clipTerm x) (ix1 w) = nrm x w := by
  rw [rsqrtTerm_apply, clipTerm_apply, degTerm_apply]; rfl

variable (hs : SrcOk src) (hd : DstOk dst)
include hs hd

theorem prodTerm_apply (e : Fin 160000) :
    prodTerm src dst (rsqrtTerm (clipTerm src)) (clipTerm dst) (ix1 e)
      = nrm src ((edges src dst hs).s e) * nrm dst ((edges src dst hs).dc e) := by
  unfold prodTerm
  rw [mulf_apply, wrapTerm_id _ src (fun e => (hs e).1), wrapTerm_id _ dst hd]
  have hse := hs e
  have hde := hd e
  have hcs := colTerm_apply src e
  have hcd := colTerm_apply dst e
  rw [gather_vector gather_S10000_S160000x1_S160000_n_0_n_n_0_1_1 rfl rfl rfl rfl rfl _ _ e (by rw [hcs]; exact hse.1) (by rw [hcs]; omega),
    gather_vector_nonneg gather_S10000_S160000x1_S160000_n_0_n_n_0_1_1 rfl rfl rfl rfl rfl _ _ e (by decide) (dst (ix1 e)).toInt.toNat
      (by rw [hcd]; omega), nrmTerm_apply, nrmTerm_apply]
  exact congrArg (nrm src · * _) (Fin.ext (congrArg (·.toInt.toNat) hcs))

theorem pairTerm_apply (e : Fin 160000) :
    pairTerm src dst (ix2 e 0) = dst (ix1 e) ∧ pairTerm src dst (ix2 e 1) = src (ix1 e) := by
  unfold pairTerm
  rw [wrapTerm_id _ src (fun e => (hs e).1), wrapTerm_id _ dst hd]
  exact ⟨(concatenate_pair_apply_left (t := S160000x2) (s₁ := S160000x1) (s₂ := S160000x1) (1 : Fin 2) _ _
      concatenates_S160000x1_S160000x1_S160000x2_d1 _ rfl (ix2 e 0)
      (fun b => match b with | ⟨0, _⟩ => rfl | ⟨1, _⟩ => rfl)).trans (colTerm_apply dst e),
    (concatenate_pair_apply_right (t := S160000x2) (s₁ := S160000x1) (s₂ := S160000x1) (1 : Fin 2) _ _
      concatenates_S160000x1_S160000x1_S160000x2_d1 _ rfl rfl (ix2 e 0)
      (fun b hb => match b with | ⟨0, _⟩ => rfl | ⟨1, _⟩ => absurd rfl hb) rfl).trans (colTerm_apply src e)⟩

-- Entry (v, u) sums the weights of the edges whose destination word is v and whose source word is u.
theorem adjTerm_apply (v u : Fin 10240) :
    adjTerm src dst (rsqrtTerm (clipTerm src)) (clipTerm dst) (ix2 v u)
      = Cert.Spec.adj (edges src dst hs) (nrm src) (nrm dst) v u := by
  unfold adjTerm
  refine (truncf_apply (φ := .f32) (ψ := .bf16) _ bitsLt_bf16_f32 (ix2 v u)).trans ?_
  rw [scatterAdd_points scatter_S10240x10240_S160000x2_S160000_n_01_01_1 rfl rfl rfl rfl]
  refine congrArg₂ (· + ·) Ideal.ofBits_zero_f32
    (Finset.sum_congr (Finset.filter_congr fun e _ => ?_) fun e _ => prodTerm_apply src dst hs hd e)
  rw [(pairTerm_apply src dst hs hd e).1, (pairTerm_apply src dst hs hd e).2]
  exact and_congr (d_eq_iff src dst hs hd e _).symm (s_eq_iff src dst hs e _).symm

omit x src dst y ns cd k hs hd

theorem v3_v9 : (V3 m c main_v9 : S10000.Idx → EReal) = rsqrtTerm (clipTerm (aSrc m c)) := by
  dsimp only [V3, hostOps0_2]; after_results
  all_goals rfl

theorem v4_v10 : (V4 m c main_v10 : S10000.Idx → EReal) = clipTerm (aDst m c) := by
  dsimp only [V4, hostOps0_3]; after_results
  all_goals rfl

theorem v5_v43 : (V5 m c main_v43 : S10240x10240.Idx → EReal)
    = adjTerm (V4 m c main_arg1 : IVec S160000 32) (V4 m c main_arg2 : IVec S160000 32)
        (V4 m c main_v9 : S10000.Idx → EReal) (V4 m c main_v10 : S10000.Idx → EReal) := by
  dsimp only [V5, hostOps0_4]
  generalize V4 m c = W
  after_results_simp
  all_goals rfl

-- The dense matrix is the adjacency of the edge list the two word vectors encode.
theorem hostA (hs : SrcOk (aSrc m c)) (hd : DstOk (aDst m c)) (v u : Fin 10240) :
    (V7 m c main_v43 : S10240x10240.Idx → EReal) (ix2 v u)
      = Cert.Spec.adj (edges (aSrc m c) (aDst m c) hs) (nrm (aSrc m c)) (nrm (aDst m c)) v u := by
  rw [V7_of, V6_of, v5_v43, V4_of m c main_arg1, V3_of, V2_of, V1_of, V4_of m c main_arg2, V3_of, V2_of, V1_of,
    V4_of m c main_v9, v3_v9, v4_v10]
  · exact adjTerm_apply _ _ hs hd v u
  all_goals decide

end Cert.KernelIdeal.Val

end
-- ==== Proof.KI.AggValue0.lean ====
import proofs.«429552_j8443905704047_1_alg».proof.Proof.KI.Agg0
import Idealize.ShloMosaic.Lib.StackMember

noncomputable section

namespace Cert.KernelIdeal.Val

open Cert.KernelIdeal Cert.KernelIdeal.Gen Cert.KernelIdeal.Hand
open Idealize.ShloMosaic Idealize.ShloMosaic.TcCoe Idealize.ShloMosaic.ValueIdx

/-- Entry (i, j) of a matrix at natural coordinates, zero outside the matrix. -/
def natAt {m n : ℕ} (f : (⟨2, ![m, n]⟩ : Shape).Idx → EReal) (i j : ℕ) : EReal :=
  if h : i < m ∧ j < n then f (ix2 ⟨i, h.1⟩ ⟨j, h.2⟩) else 0

theorem natAt_of_val {m n : ℕ} (f : (⟨2, ![m, n]⟩ : Shape).Idx → EReal) (i : (⟨2, ![m, n]⟩ : Shape).Idx) {a b : ℕ}
    (ha : (i 0).val = a) (hb : (i 1).val = b) : f i = natAt f a b := by
  subst ha hb; exact ((dif_pos ⟨(i 0).isLt, (i 1).isLt⟩).trans (congrArg f (eq_ix2 i).symm)).symm

/-- Ten runs of 1024 consecutive numbers are the first 10240 numbers: u = 1024 s + r. -/
theorem sum_blocks (f : ℕ → EReal) :
    ∑ s ∈ Finset.range 10, ∑ r : Fin 1024, f (1024 * s + r.val) = ∑ u : Fin 10240, f u.val :=
  calc ∑ s ∈ Finset.range 10, ∑ r : Fin 1024, f (1024 * s + r.val)
      = ∑ s : Fin 10, ∑ r : Fin 1024, f (1024 * s.val + r.val) := Finset.sum_range _
    _ = ∑ x : Fin 10 × Fin 1024, f ((finProdFinEquiv x).val) := by
        rw [Fintype.sum_prod_type]
        refine Finset.sum_congr rfl fun s _ => Finset.sum_congr rfl fun r _ => ?_
        show f (1024 * s.val + r.val) = f (r.val + 1024 * s.val)
        rw [Nat.add_comm]
    _ = ∑ u : Fin 10240, f u.val := Equiv.sum_comp (finProdFinEquiv (m := 10) (n := 1024)) (fun u : Fin 10240 => f u.val)

/-- The block the accumulator restarts from is zero, -/
theorem agg_pay1 (i : S1024x1024.Idx) : (k0_pay1 (F := Ideal)) i = 0 := by
  unfold k0_pay1
  simp only [shapeCast_self]
  exact Ideal.ofBits_zero_f32

/-- one step adds the product of the two blocks, -/
theorem agg_pay2 (a : FVec Ideal S1024x1024 .f32) (x y : FVec Ideal S1024x1024 .bf16) (p q : Fin 1024) :
    k0_pay2 (F := Ideal) a x y (ix2 p q) = a (ix2 p q) + ∑ r : Fin 1024, x (ix2 p r) * y (ix2 r q) := by
  unfold k0_pay2
  simp only [shapeCast_self]
  exact congrArg (a (ix2 p q) + ·) ((congrFun (matmul_zero_eq_dotGeneral _ none x y) _).trans
    (StackMember.dotGeneral_plain_apply none x y p q))

/-- and the change of format at the end is the identity over the extended reals. -/
theorem agg_pay3 (a : FVec Ideal S1024x1024 .f32) : k0_pay3 (F := Ideal) a = a := rfl

section Run
variable (A : S10240x10240.Idx → EReal) (X : S10240x1024.Idx → EReal)

/-- What point n adds at entry i of its row block: block (n / 10, n % 10) of A times block n % 10 of X. -/
def aggTerm (n : ℕ) (i : S1024x1024.Idx) : EReal :=
  ∑ r : Fin 1024, natAt A (1024 * (n / 10) + (i 0).val) (1024 * (n % 10) + r.val) * natAt X (1024 * (n % 10) + r.val) (i 1).val

/-- The product A · X, entry by entry. -/
def aggG : S10240x1024.Idx → EReal := fun i => ∑ u : Fin 10240, natAt A (i 0).val u.val * natAt X u.val (i 1).val

theorem aggG_apply (v : Fin 10240) (j : Fin 1024) : aggG A X (ix2 v j) = ∑ u : Fin 10240, A (ix2 v u) * X (ix2 u j) :=
  (Finset.sum_congr rfl fun u _ => (congrArg₂ (· * ·) (natAt_of_val A (ix2 v u) rfl rfl) (natAt_of_val X (ix2 u j) rfl rfl)).symm)

/-- At point t = 10 mb + kb the left block is (mb, kb), the right one (kb, 0), the output's (mb, 0). -/
def AggIdx {N : ℕ} (i0 i1 i2 : Fin N → Fin 2 → ℕ) : Prop := ∀ t : Fin N,
  i0 t 0 = t.val / 10 ∧ i0 t 1 = t.val % 10 ∧ i1 t 0 = t.val % 10 ∧ i1 t 1 = 0 ∧ i2 t 0 = t.val / 10 ∧ i2 t 1 = 0

/-- Entry y of block k t of a matrix sits at coordinates 1024 (k t) + y. -/
def Blocked {N m n : ℕ} (k : Fin N → Fin 2 → ℕ) (e : Fin N → S1024x1024.Idx → (⟨2, ![m, n]⟩ : Shape).Idx) : Prop :=
  ∀ t y, (e t y 0).val = k t 0 * 1024 + 1 * (y 0).val ∧ (e t y 1).val = k t 1 * 1024 + 1 * (y 1).val

variable {N : ℕ} {i0 i1 i2 : Fin N → Fin 2 → ℕ} (hidx : AggIdx i0 i1 i2)
  {eL : Fin N → S1024x1024.Idx → S10240x10240.Idx} {eR eO : Fin N → S1024x1024.Idx → S10240x1024.Idx}
  (bO : Blocked i2 eO)
include hidx bO

/-- Every entry of the output lies in the block of the last point of its row block. -/
theorem agg_cover (hN : N = 100) (v : Fin 10240) (j : Fin 1024) : ∃ (t : Fin N) (y : S1024x1024.Idx), t.val % 10 = 9 ∧ eO t y = ix2 v j := by
  obtain ⟨t, ht⟩ : ∃ t : Fin N, t.val = 10 * (v.val / 1024) + 9 := ⟨⟨10 * (v.val / 1024) + 9, by rw [hN]; omega⟩, rfl⟩
  obtain ⟨-, -, -, -, e4, e5⟩ := hidx t
  refine ⟨t, ix2 ⟨v.val % 1024, Nat.mod_lt _ (by decide)⟩ j, by omega, Shape.idx_ext₂
    ((bO t _).1.trans (by show _ * 1024 + 1 * (v.val % 1024) = v.val; rw [e4]; omega))
    ((bO t _).2.trans (by show _ * 1024 + 1 * j.val = j.val; rw [e5]; omega))⟩

variable (bL : Blocked i0 eL) (bR : Blocked i1 eR)
include bL bR

/-- Restarting at every tenth point and adding a block product at each, the accumulator ends a run holding its row block of A · X. -/
theorem agg_block (acc : (n : ℕ) → n < N → S1024x1024.Idx → EReal) (L R : Fin N → S1024x1024.Idx → EReal)
    (h0 : ∀ t : Fin N, t.val % 10 = 0 → acc t.val t.isLt = k0_pay2 (F := Ideal) (k0_pay1 (F := Ideal)) (L t) (R t))
    (hs : ∀ t : Fin N, t.val % 10 ≠ 0 →
      acc t.val t.isLt = k0_pay2 (F := Ideal) (acc (t.val - 1) (Nat.lt_of_le_of_lt (Nat.sub_le _ _) t.isLt)) (L t) (R t))
    (hL : ∀ t y, L t y = A (eL t y)) (hR : ∀ t y, R t y = X (eR t y))
    (t : Fin N) (h9 : t.val % 10 = 9) (y : S1024x1024.Idx) : acc t.val t.isLt y = aggG A X (eO t y) := by
  have step : ∀ (t : Fin N) (a : S1024x1024.Idx → EReal) (y : S1024x1024.Idx),
      k0_pay2 (F := Ideal) a (L t) (R t) y = a y + aggTerm A X t.val y := fun t a y => by
    obtain ⟨p, q, rfl⟩ : ∃ p q : Fin 1024, y = ix2 p q := ⟨y 0, y 1, eq_ix2 y⟩
    obtain ⟨e0, e1, e2, e3, -⟩ := hidx t
    exact (agg_pay2 a _ _ p q).trans (congrArg (a (ix2 p q) + ·) (Finset.sum_congr rfl fun r _ => congrArg₂ (· * ·)
      ((hL t _).trans (natAt_of_val A _
        ((bL t (ix2 p r)).1.trans (by show _ * 1024 + 1 * p.val = 1024 * (t.val / 10) + p.val; rw [e0]; omega))
        ((bL t (ix2 p r)).2.trans (by show _ * 1024 + 1 * r.val = 1024 * (t.val % 10) + r.val; rw [e1]; omega))))
      ((hR t _).trans (natAt_of_val X _
        ((bR t (ix2 r q)).1.trans (by show _ * 1024 + 1 * r.val = 1024 * (t.val % 10) + r.val; rw [e2]; omega))
        ((bR t (ix2 r q)).2.trans (by show _ * 1024 + 1 * q.val = q.val; rw [e3]; omega))))))
  have ht := t.isLt
  obtain ⟨-, -, -, -, e4, e5⟩ := hidx t
  have e1 := Pipeline.eq_accAt_of_mod acc 10 (fun n _ => aggTerm A X n) (fun n _ a y => a y + aggTerm A X n y)
    (fun n h hn => (h0 ⟨n, h⟩ hn).trans (funext fun y => (step ⟨n, h⟩ _ y).trans (by rw [agg_pay1, zero_add])))
    (fun n h hn => (hs ⟨n + 1, h⟩ hn).trans (funext (step ⟨n + 1, h⟩ _)))
    (by decide) t.val t.isLt (by omega)
  have e2 := Pipeline.accAt_add_apply (fun n (_ : n < N) => aggTerm A X n) (fun n (_ : n < N) a y => a y + aggTerm A X n y)
    0 (aggTerm A X) (10 * (t.val / 10)) 9 (fun _ _ => (zero_add _).symm) (fun _ _ _ _ _ _ => rfl)
    (t.val % 10) (by omega) (by omega) y
  refine (congrFun e1 y).trans (e2.trans ?_)
  rw [h9, Pi.zero_apply, zero_add]
  unfold aggG
  rw [(bO t y).1, (bO t y).2, e4, e5]
  refine Eq.trans ?_ ((sum_blocks fun n => natAt A (1024 * (t.val / 10) + (y 0).val) n * natAt X n (y 1).val).trans
    (Finset.sum_congr rfl fun u _ => by rw [show t.val / 10 * 1024 + 1 * (y 0).val = 1024 * (t.val / 10) + (y 0).val by omega,
      show 0 * 1024 + 1 * (y 1).val = (y 1).val by omega]))
  refine Finset.sum_congr rfl fun s hs => ?_
  have := Finset.mem_range.mp hs
  unfold aggTerm
  rw [show (10 * (t.val / 10) + s) / 10 = t.val / 10 by omega, show (10 * (t.val / 10) + s) % 10 = s by omega]

end Run

variable (V : (c : Dev nD) → (b : Ref sig .tc) → Buf (Elt Ideal) ((c : Thread nD τ).loc b))

abbrev adjm0 (c : Dev nD) : S10240x10240.Idx → EReal := V c main_v43
abbrev feat0 (c : Dev nD) : S10240x1024.Idx → EReal := V c main_v45
abbrev res0 (c : Dev nD) : S10240x1024.Idx → EReal := (Hand.dat0 (F := Ideal) V c).arrAt 2 cfg0.N

theorem agg0_idx : AggIdx (N := cfg0.N) win0_0.index win0_1.index win0_2.index := (by decide +kernel : ∀ t : Fin grid0.N, _)

/-- The block written at the end of a run of ten points is that row block of the product. -/
theorem agg0_flushed_eq (c : Dev nD) (t : Fin cfg0.N) (hf : (cfg0.win 2).flush t = true) :
    (dat0 (F := Ideal) V c).flushed 2 t
      = ((cfg0.win 2).blk t).view.read (Elt Ideal) (aggG (adjm0 V c) (feat0 V c)) := by
  have h9 : t.val % 10 = 9 := (flush0_2 t).mp hf
  show (cfg0.win 2).cut (grid0.coords t) ((dat0 (F := Ideal) V c).after 2 t) = _
  rw [after0_2 (F := Ideal) V c t h9]
  exact funext fun y => agg_block (adjm0 V c) (feat0 V c) agg0_idx (eL := fun t => ((cfg0.win 0).blk t).view.emb)
    (eR := fun t => ((cfg0.win 1).blk t).view.emb) (eO := fun t => ((cfg0.win 2).blk t).view.emb)
    (fun _ _ => ⟨rfl, rfl⟩) (fun _ _ => ⟨rfl, rfl⟩) (fun _ _ => ⟨rfl, rfl⟩) (acc0 (F := Ideal) V c)
    (iblk0 (F := Ideal) V c 0) (iblk0 (F := Ideal) V c 1) (acc0_first V c) (acc0_next V c) (fun _ _ => rfl) (fun _ _ => rfl) t h9 _

theorem agg0_value (c : Dev nD) (v : Fin 10240) (j : Fin 1024) :
    res0 V c (ix2 v j) = ∑ u : Fin 10240, adjm0 V c (ix2 v u) * feat0 V c (ix2 u j) := by
  obtain ⟨t, y, h9, hy⟩ := agg_cover agg0_idx (eO := fun t => ((cfg0.win 2).blk t).view.emb) (fun _ _ => ⟨rfl, rfl⟩) N_0 v j
  have h := (dat0 (F := Ideal) V c).arrAt_apply_of_mem 2 _ (agg0_flushed_eq V c) cfg0.N t _ t.isLt ((flush0_2 t).mpr h9)
    (View.emb_mem_set _ y)
  exact (congrArg (res0 V c) hy).symm.trans (h.trans ((congrArg _ hy).trans (aggG_apply _ _ v j)))

end Cert.KernelIdeal.Val
-- ==== Proof.KI.AggValue2.lean ====
import proofs.«429552_j8443905704047_1_alg».proof.Proof.KI.Agg2
import proofs.«429552_j8443905704047_1_alg».proof.Proof.KI.AggValue0

noncomputable section

namespace Cert.KernelIdeal.Val

open Cert.KernelIdeal Cert.KernelIdeal.Gen Cert.KernelIdeal.Hand
open Idealize.ShloMosaic Idealize.ShloMosaic.TcCoe Idealize.ShloMosaic.ValueIdx

variable (V : (c : Dev nD) → (b : Ref sig .tc) → Buf (Elt Ideal) ((c : Thread nD τ).loc b))

abbrev adjm2 (c : Dev nD) : S10240x10240.Idx → EReal := V c main_v43
abbrev feat2 (c : Dev nD) : S10240x1024.Idx → EReal := V c main_v51
abbrev res2 (c : Dev nD) : S10240x1024.Idx → EReal := (Hand.dat2 (F := Ideal) V c).arrAt 2 cfg2.N

theorem agg2_idx : AggIdx (N := cfg2.N) win2_0.index win2_1.index win2_2.index := (by decide +kernel : ∀ t : Fin grid2.N, _)

/-- The block written at the end of a run of ten points is that row block of the product. -/
theorem agg2_flushed_eq (c : Dev nD) (t : Fin cfg2.N) (hf : (cfg2.win 2).flush t = true) :
    (dat2 (F := Ideal) V c).flushed 2 t
      = ((cfg2.win 2).blk t).view.read (Elt Ideal) (aggG (adjm2 V c) (feat2 V c)) := by
  have h9 : t.val % 10 = 9 := (flush2_2 t).mp hf
  show (cfg2.win 2).cut (grid2.coords t) ((dat2 (F := Ideal) V c).after 2 t) = _
  rw [after2_2 (F := Ideal) V c t h9]
  exact funext fun y => agg_block (adjm2 V c) (feat2 V c) agg2_idx (eL := fun t => ((cfg2.win 0).blk t).view.emb)
    (eR := fun t => ((cfg2.win 1).blk t).view.emb) (eO := fun t => ((cfg2.win 2).blk t).view.emb)
    (fun _ _ => ⟨rfl, rfl⟩) (fun _ _ => ⟨rfl, rfl⟩) (fun _ _ => ⟨rfl, rfl⟩) (acc2 (F := Ideal) V c)
    (iblk2 (F := Ideal) V c 0) (iblk2 (F := Ideal) V c 1) (acc2_first V c) (acc2_next V c) (fun _ _ => rfl) (fun _ _ => rfl) t h9 _

theorem agg2_value (c : Dev nD) (v : Fin 10240) (j : Fin 1024) :
    res2 V c (ix2 v j) = ∑ u : Fin 10240, adjm2 V c (ix2 v u) * feat2 V c (ix2 u j) := by
  obtain ⟨t, y, h9, hy⟩ := agg_cover agg2_idx (eO := fun t => ((cfg2.win 2).blk t).view.emb) (fun _ _ => ⟨rfl, rfl⟩) N_2 v j
  have h := (dat2 (F := Ideal) V c).arrAt_apply_of_mem 2 _ (agg2_flushed_eq V c) cfg2.N t _ t.isLt ((flush2_2 t).mpr h9)
    (View.emb_mem_set _ y)
  exact (congrArg (res2 V c) hy).symm.trans (h.trans ((congrArg _ hy).trans (aggG_apply _ _ v j)))

end Cert.KernelIdeal.Val
-- ==== Proof.KI.AggValue4.lean ====
import proofs.«429552_j8443905704047_1_alg».proof.Proof.KI.Agg4
import proofs.«429552_j8443905704047_1_alg».proof.Proof.KI.AggValue0

noncomputable section

namespace Cert.KernelIdeal.Val

open Cert.KernelIdeal Cert.KernelIdeal.Gen Cert.KernelIdeal.Hand
open Idealize.ShloMosaic Idealize.ShloMosaic.TcCoe Idealize.ShloMosaic.ValueIdx

variable (V : (c : Dev nD) → (b : Ref sig .tc) → Buf (Elt Ideal) ((c : Thread nD τ).loc b))

abbrev adjm4 (c : Dev nD) : S10240x10240.Idx → EReal := V c main_v43
abbrev feat4 (c : Dev nD) : S10240x1024.Idx → EReal := V c main_v54
abbrev res4 (c : Dev nD) : S10240x1024.Idx → EReal := (Hand.dat4 (F := Ideal) V c).arrAt 2 cfg4.N

theorem agg4_idx : AggIdx (N := cfg4.N) win4_0.index win4_1.index win4_2.index := (by decide +kernel : ∀ t : Fin grid4.N, _)

/-- The block written at the end of a run of ten points is that row block of the product. -/
theorem agg4_flushed_eq (c : Dev nD) (t : Fin cfg4.N) (hf : (cfg4.win 2).flush t = true) :
    (dat4 (F := Ideal) V c).flushed 2 t
      = ((cfg4.win 2).blk t).view.read (Elt Ideal) (aggG (adjm4 V c) (feat4 V c)) := by
  have h9 : t.val % 10 = 9 := (flush4_2 t).mp hf
  show (cfg4.win 2).cut (grid4.coords t) ((dat4 (F := Ideal) V c).after 2 t) = _
  rw [after4_2 (F := Ideal) V c t h9]
  exact funext fun y => agg_block (adjm4 V c) (feat4 V c) agg4_idx (eL := fun t => ((cfg4.win 0).blk t).view.emb)
    (eR := fun t => ((cfg4.win 1).blk t).view.emb) (eO := fun t => ((cfg4.win 2).blk t).view.emb)
    (fun _ _ => ⟨rfl, rfl⟩) (fun _ _ => ⟨rfl, rfl⟩) (fun _ _ => ⟨rfl, rfl⟩) (acc4 (F := Ideal) V c)
    (iblk4 (F := Ideal) V c 0) (iblk4 (F := Ideal) V c 1) (acc4_first V c) (acc4_next V c) (fun _ _ => rfl) (fun _ _ => rfl) t h9 _

theorem agg4_value (c : Dev nD) (v : Fin 10240) (j : Fin 1024) :
    res4 V c (ix2 v j) = ∑ u : Fin 10240, adjm4 V c (ix2 v u) * feat4 V c (ix2 u j) := by
  obtain ⟨t, y, h9, hy⟩ := agg_cover agg4_idx (eO := fun t => ((cfg4.win 2).blk t).view.emb) (fun _ _ => ⟨rfl, rfl⟩) N_4 v j
  have h := (dat4 (F := Ideal) V c).arrAt_apply_of_mem 2 _ (agg4_flushed_eq V c) cfg4.N t _ t.isLt ((flush4_2 t).mpr h9)
    (View.emb_mem_set _ y)
  exact (congrArg (res4 V c) hy).symm.trans (h.trans ((congrArg _ hy).trans (aggG_apply _ _ v j)))

end Cert.KernelIdeal.Val
-- ==== Proof.KI.ProjValue1.lean ====
import proofs.«429552_j8443905704047_1_alg».proof.Proof.KI.Proj1
import Idealize.ShloMosaic.Lib.StackMember
import Idealize.ShloMosaic.Lib.ValueLayout
noncomputable section
namespace Cert.KernelIdeal.Val
open Cert.KernelIdeal Cert.KernelIdeal.Gen Cert.KernelIdeal.Hand
open Idealize.ShloMosaic Idealize.ShloMosaic.TcCoe Idealize.ShloMosaic.ValueIdx

section Dense
variable {C : ℕ} (φ : EReal → EReal) (act : S10240x1024.Idx → EReal)
  (wt : (⟨2, ![1024, C]⟩ : Shape).Idx → EReal) (bias : (⟨2, ![1, C]⟩ : Shape).Idx → EReal)

/-- One dense layer at entry i: row i₀ of the activations times column i₁ of the weights, plus the bias at i₁, through φ. -/
def denseG : (⟨2, ![10240, C]⟩ : Shape).Idx → EReal := fun i =>
  φ ((∑ r : Fin 1024, act (ix2 (⟨(i 0).val, idx2_lt0 i⟩ : Fin 10240) r) * wt (ix2 r (⟨(i 1).val, idx2_lt1 i⟩ : Fin C)))
    + bias (ix2 (0 : Fin 1) (⟨(i 1).val, idx2_lt1 i⟩ : Fin C)))

/-- At point t the activations' and the output's block is row block t; the weights' and the bias row's are the whole arrays. -/
def ProjIdx {N : ℕ} (i0 i1 i2 i3 : Fin N → Fin 2 → ℕ) : Prop := ∀ t : Fin N,
  i0 t 0 = t.val ∧ i0 t 1 = 0 ∧ i1 t 0 = 0 ∧ i1 t 1 = 0 ∧ i2 t 0 = 0 ∧ i2 t 1 = 0 ∧ i3 t 0 = t.val ∧ i3 t 1 = 0

/-- Entry y of block k t of a matrix, the blocks p by q, sits at coordinates (p, q) · k t + y. -/
def BlockAt {N p q m n : ℕ} (k : Fin N → Fin 2 → ℕ) (e : Fin N → (⟨2, ![p, q]⟩ : Shape).Idx → (⟨2, ![m, n]⟩ : Shape).Idx) : Prop :=
  ∀ t y, (e t y 0).val = k t 0 * p + 1 * (y 0).val ∧ (e t y 1).val = k t 1 * q + 1 * (y 1).val

variable {N : ℕ} {i0 i1 i2 i3 : Fin N → Fin 2 → ℕ} (hidx : ProjIdx i0 i1 i2 i3)
  {e3 : Fin N → (⟨2, ![2048, C]⟩ : Shape).Idx → (⟨2, ![10240, C]⟩ : Shape).Idx} (b3 : BlockAt i3 e3)
include hidx b3

/-- Row v of the output lies in the block of point v / 2048. -/
theorem dense_cover (hN : N = 5) (v : Fin 10240) (k : Fin C) : ∃ (t : Fin N) (y : (⟨2, ![2048, C]⟩ : Shape).Idx), e3 t y = ix2 v k := by
  obtain ⟨t, ht⟩ : ∃ t : Fin N, t.val = v.val / 2048 := ⟨⟨v.val / 2048, by rw [hN]; omega⟩, rfl⟩
  obtain ⟨-, -, -, -, -, -, a6, a7⟩ := hidx t
  exact ⟨t, ix2 ⟨v.val % 2048, Nat.mod_lt _ (by decide)⟩ k, Shape.idx_ext₂
    ((b3 t _).1.trans (by show _ * 2048 + 1 * (v.val % 2048) = v.val; rw [a6]; omega))
    ((b3 t _).2.trans (by show _ * C + 1 * k.val = k.val; rw [a7]; omega))⟩

variable {e0 : Fin N → S2048x1024.Idx → S10240x1024.Idx} {e1 : Fin N → (⟨2, ![1024, C]⟩ : Shape).Idx → (⟨2, ![1024, C]⟩ : Shape).Idx}
  {e2 : Fin N → (⟨2, ![1, C]⟩ : Shape).Idx → (⟨2, ![1, C]⟩ : Shape).Idx} (b0 : BlockAt i0 e0) (b1 : BlockAt i1 e1) (b2 : BlockAt i2 e2)
include b0 b1 b2

/-- The layer of rows 2048 t … of the activations with the whole weights and bias is that row block of the layer. -/
theorem dense_rows (pay : (⟨2, ![2048, C]⟩ : Shape).Idx → EReal) (x : S2048x1024.Idx → EReal)
    (w : (⟨2, ![1024, C]⟩ : Shape).Idx → EReal) (b : (⟨2, ![1, C]⟩ : Shape).Idx → EReal)
    (hpay : ∀ p q, pay (ix2 p q) = φ ((∑ r : Fin 1024, x (ix2 p r) * w (ix2 r q)) + b (ix2 0 q))) (t : Fin N)
    (hx : ∀ y, x y = act (e0 t y)) (hw : ∀ y, w y = wt (e1 t y)) (hb : ∀ y, b y = bias (e2 t y))
    (j : (⟨2, ![2048, C]⟩ : Shape).Idx) : pay j = denseG φ act wt bias (e3 t j) := by
  obtain ⟨p, q, rfl⟩ : ∃ (p : Fin 2048) (q : Fin C), j = ix2 p q := ⟨j 0, j 1, eq_ix2 j⟩
  obtain ⟨a0, a1, a2, a3, a4, a5, a6, a7⟩ := hidx t
  have hq : (⟨(e3 t (ix2 p q) 1).val, idx2_lt1 _⟩ : Fin C) = q :=
    Fin.ext ((b3 t _).2.trans (by show _ * C + 1 * q.val = q.val; rw [a7]; omega))
  unfold denseG
  rw [hpay, hq]
  refine congrArg φ (congrArg₂ (· + ·) (Finset.sum_congr rfl fun r _ => congrArg₂ (· * ·)
    ((hx _).trans (congrArg act (Shape.idx_ext₂ ?_ ?_))) ((hw _).trans (congrArg wt (Shape.idx_ext₂ ?_ ?_))))
    ((hb _).trans (congrArg bias (Shape.idx_ext₂ ?_ ?_))))
  · exact (b0 t _).1.trans (((b3 t (ix2 p q)).1.trans (by show _ * 2048 + 1 * p.val = i0 t 0 * 2048 + 1 * p.val; rw [a6, a0])).symm)
  · exact (b0 t _).2.trans (by show _ * 1024 + 1 * r.val = r.val; rw [a1]; omega)
  · exact (b1 t _).1.trans (by show _ * 1024 + 1 * r.val = r.val; rw [a2]; omega)
  · exact (b1 t _).2.trans (by show _ * C + 1 * q.val = q.val; rw [a3]; omega)
  · exact (b2 t _).1.trans (by show _ * 1 + 1 * (0 : Fin 1).val = (0 : Fin 1).val; rw [a4]; omega)
  · exact (b2 t _).2.trans (by show _ * C + 1 * q.val = q.val; rw [a5]; omega)

end Dense

/-- What regions 1 and 3 compute at an entry of a block: the block times the weights, plus the bias row, floored at zero. -/
theorem proj_pay (x : Vec Ideal S2048x1024 .bf16) (w : Vec Ideal S1024x1024 .bf16) (b : Vec Ideal S1x1024 .f32) (p : Fin 2048) (q : Fin 1024) :
    (k1_pay1 (F := Ideal) x w b : S2048x1024.Idx → EReal) (ix2 p q)
      = max ((∑ r : Fin 1024, (x : S2048x1024.Idx → EReal) (ix2 p r) * (w : S1024x1024.Idx → EReal) (ix2 r q)) + (b : S1x1024.Idx → EReal) (ix2 0 q)) 0 := by
  unfold k1_pay1
  simp only [shapeCast_self]
  exact congrArg₂ max (congrArg₂ (· + ·) ((congrFun (matmul_zero_eq_dotGeneral _ none x w) _).trans
    (StackMember.dotGeneral_plain_apply none x w p q)) (broadcastTo_1b_ab_apply b broadcasts_S1x1024_S2048x1024 p q)) Ideal.ofBits_zero_f32

variable (V : (c : Dev nD) → (b : Ref sig .tc) → Buf (Elt Ideal) ((c : Thread nD τ).loc b))

abbrev act1 (c : Dev nD) : S10240x1024.Idx → EReal := V c main_v49
abbrev wt1 (c : Dev nD) : S1024x1024.Idx → EReal := V c main_v46
abbrev bias1 (c : Dev nD) : S1x1024.Idx → EReal := V c main_v50
abbrev res1 (c : Dev nD) : S10240x1024.Idx → EReal := (Cert.KernelIdeal.Hand.dat1 (F := Ideal) V c).arrAt 3 cfg1.N

theorem idx1 : ProjIdx (N := cfg1.N) win1_0.index win1_1.index win1_2.index win1_3.index := (by decide +kernel : ∀ t : Fin grid1.N, _)

/-- The layer as one function of the three arrays the region finds. -/
abbrev G1 (c : Dev nD) : S10240x1024.Idx → EReal := denseG (max · 0) (act1 V c) (wt1 V c) (bias1 V c)

/-- The block written at point t is row block t of the layer. -/
theorem flushed1_eq (c : Dev nD) (t : Fin cfg1.N) :
    (dat1 (F := Ideal) V c).flushed 3 t = ((cfg1.win 3).blk t).view.read (Elt Ideal) (G1 V c) := by
  show (cfg1.win 3).cut (grid1.coords t) ((dat1 (F := Ideal) V c).after 3 t) = _
  rw [after1_3, out1_3_eq]
  exact funext fun j => dense_rows (max · 0) (act1 V c) (wt1 V c) (bias1 V c) idx1
    (e3 := fun t => ((cfg1.win 3).blk t).view.emb) (fun _ _ => ⟨rfl, rfl⟩) (e0 := fun t => ((cfg1.win 0).blk t).view.emb)
    (e1 := fun t => ((cfg1.win 1).blk t).view.emb) (e2 := fun t => ((cfg1.win 2).blk t).view.emb)
    (fun _ _ => ⟨rfl, rfl⟩) (fun _ _ => ⟨rfl, rfl⟩) (fun _ _ => ⟨rfl, rfl⟩)
    (k1_pay1 (F := Ideal) (iblk1 V c 0 t) (iblk1 V c 1 t) (iblk1 V c 2 t)) _ _ _ (proj_pay _ _ _) t
    (fun _ => rfl) (fun _ => rfl) (fun _ => rfl) _

theorem proj1_value (c : Dev nD) (v : Fin 10240) (k : Fin 1024) :
    res1 V c (ix2 v k)
      = max ((∑ j : Fin 1024, act1 V c (ix2 v j) * wt1 V c (ix2 j k))
          + bias1 V c (ix2 0 k)) 0 := by
  obtain ⟨t, y, hy⟩ := dense_cover idx1 (e3 := fun t => ((cfg1.win 3).blk t).view.emb) (fun _ _ => ⟨rfl, rfl⟩) N_1 v k
  have h := (dat1 (F := Ideal) V c).arrAt_apply_of_mem 3 (G1 V c) (fun t _ => flushed1_eq V c t) cfg1.N t _ t.isLt (flush1_3 t)
    (View.emb_mem_set _ y)
  rw [show ((cfg1.win 3).blk t).view.emb y = ix2 v k from hy] at h
  exact h

end Cert.KernelIdeal.Val

end
-- ==== Proof.KI.ProjValue3.lean ====
import proofs.«429552_j8443905704047_1_alg».proof.Proof.KI.Proj3
import proofs.«429552_j8443905704047_1_alg».proof.Proof.KI.ProjValue1
noncomputable section
namespace Cert.KernelIdeal.Val
open Cert.KernelIdeal Cert.KernelIdeal.Gen Cert.KernelIdeal.Hand
open Idealize.ShloMosaic Idealize.ShloMosaic.TcCoe Idealize.ShloMosaic.ValueIdx

variable (V : (c : Dev nD) → (b : Ref sig .tc) → Buf (Elt Ideal) ((c : Thread nD τ).loc b))

abbrev act3 (c : Dev nD) : S10240x1024.Idx → EReal := V c main_v52
abbrev wt3 (c : Dev nD) : S1024x1024.Idx → EReal := V c main_v47
abbrev bias3 (c : Dev nD) : S1x1024.Idx → EReal := V c main_v53
abbrev res3 (c : Dev nD) : S10240x1024.Idx → EReal := (Cert.KernelIdeal.Hand.dat3 (F := Ideal) V c).arrAt 3 cfg3.N

theorem idx3 : ProjIdx (N := cfg3.N) win3_0.index win3_1.index win3_2.index win3_3.index := (by decide +kernel : ∀ t : Fin grid3.N, _)

/-- The layer as one function of the three arrays the region finds. -/
abbrev G3 (c : Dev nD) : S10240x1024.Idx → EReal := denseG (max · 0) (act3 V c) (wt3 V c) (bias3 V c)

/-- The block written at point t is row block t of the layer. -/
theorem flushed3_eq (c : Dev nD) (t : Fin cfg3.N) :
    (dat3 (F := Ideal) V c).flushed 3 t = ((cfg3.win 3).blk t).view.read (Elt Ideal) (G3 V c) := by
  show (cfg3.win 3).cut (grid3.coords t) ((dat3 (F := Ideal) V c).after 3 t) = _
  rw [after3_3, out3_3_eq]
  exact funext fun j => dense_rows (max · 0) (act3 V c) (wt3 V c) (bias3 V c) idx3
    (e3 := fun t => ((cfg3.win 3).blk t).view.emb) (fun _ _ => ⟨rfl, rfl⟩) (e0 := fun t => ((cfg3.win 0).blk t).view.emb)
    (e1 := fun t => ((cfg3.win 1).blk t).view.emb) (e2 := fun t => ((cfg3.win 2).blk t).view.emb)
    (fun _ _ => ⟨rfl, rfl⟩) (fun _ _ => ⟨rfl, rfl⟩) (fun _ _ => ⟨rfl, rfl⟩)
    (k3_pay1 (F := Ideal) (iblk3 V c 0 t) (iblk3 V c 1 t) (iblk3 V c 2 t)) _ _ _ (proj_pay _ _ _) t
    (fun _ => rfl) (fun _ => rfl) (fun _ => rfl) _

theorem proj3_value (c : Dev nD) (v : Fin 10240) (k : Fin 1024) :
    res3 V c (ix2 v k)
      = max ((∑ j : Fin 1024, act3 V c (ix2 v j) * wt3 V c (ix2 j k))
          + bias3 V c (ix2 0 k)) 0 := by
  obtain ⟨t, y, hy⟩ := dense_cover idx3 (e3 := fun t => ((cfg3.win 3).blk t).view.emb) (fun _ _ => ⟨rfl, rfl⟩) N_3 v k
  have h := (dat3 (F := Ideal) V c).arrAt_apply_of_mem 3 (G3 V c) (fun t _ => flushed3_eq V c t) cfg3.N t _ t.isLt (flush3_3 t)
    (View.emb_mem_set _ y)
  rw [show ((cfg3.win 3).blk t).view.emb y = ix2 v k from hy] at h
  exact h

end Cert.KernelIdeal.Val

end
-- ==== Proof.KI.ProjValue5.lean ====
import proofs.«429552_j8443905704047_1_alg».proof.Proof.KI.Proj5
import proofs.«429552_j8443905704047_1_alg».proof.Proof.KI.ProjValue1
noncomputable section
namespace Cert.KernelIdeal.Val
open Cert.KernelIdeal Cert.KernelIdeal.Gen Cert.KernelIdeal.Hand
open Idealize.ShloMosaic Idealize.ShloMosaic.TcCoe Idealize.ShloMosaic.ValueIdx

/-- What the last layer computes at an entry of a block: the block times the weights, plus the bias row; no floor. -/
theorem proj5_pay (x : Vec Ideal S2048x1024 .bf16) (w : Vec Ideal S1024x64 .bf16) (b : Vec Ideal S1x64 .f32) (p : Fin 2048) (q : Fin 64) :
    (k5_pay1 (F := Ideal) x w b : S2048x64.Idx → EReal) (ix2 p q)
      = (∑ r : Fin 1024, (x : S2048x1024.Idx → EReal) (ix2 p r) * (w : S1024x64.Idx → EReal) (ix2 r q)) + (b : S1x64.Idx → EReal) (ix2 0 q) := by
  unfold k5_pay1
  simp only [shapeCast_self]
  exact congrArg₂ (· + ·) ((congrFun (matmul_zero_eq_dotGeneral _ none x w) _).trans
    (StackMember.dotGeneral_plain_apply none x w p q)) (broadcastTo_1b_ab_apply b broadcasts_S1x64_S2048x64 p q)

variable (V : (c : Dev nD) → (b : Ref sig .tc) → Buf (Elt Ideal) ((c : Thread nD τ).loc b))

abbrev act5 (c : Dev nD) : S10240x1024.Idx → EReal := V c main_v55
abbrev wt5 (c : Dev nD) : S1024x64.Idx → EReal := V c main_v48
abbrev bias5 (c : Dev nD) : S1x64.Idx → EReal := V c main_v56
abbrev res5 (c : Dev nD) : S10240x64.Idx → EReal := (Cert.KernelIdeal.Hand.dat5 (F := Ideal) V c).arrAt 3 cfg5.N

theorem idx5 : ProjIdx (N := cfg5.N) win5_0.index win5_1.index win5_2.index win5_3.index := (by decide +kernel : ∀ t : Fin grid5.N, _)

/-- The layer as one function of the three arrays the region finds. -/
abbrev G5 (c : Dev nD) : S10240x64.Idx → EReal := denseG id (act5 V c) (wt5 V c) (bias5 V c)

/-- The block written at point t is row block t of the layer. -/
theorem flushed5_eq (c : Dev nD) (t : Fin cfg5.N) :
    (dat5 (F := Ideal) V c).flushed 3 t = ((cfg5.win 3).blk t).view.read (Elt Ideal) (G5 V c) := by
  show (cfg5.win 3).cut (grid5.coords t) ((dat5 (F := Ideal) V c).after 3 t) = _
  rw [after5_3, out5_3_eq]
  exact funext fun j => dense_rows id (act5 V c) (wt5 V c) (bias5 V c) idx5
    (e3 := fun t => ((cfg5.win 3).blk t).view.emb) (fun _ _ => ⟨rfl, rfl⟩) (e0 := fun t => ((cfg5.win 0).blk t).view.emb)
    (e1 := fun t => ((cfg5.win 1).blk t).view.emb) (e2 := fun t => ((cfg5.win 2).blk t).view.emb)
    (fun _ _ => ⟨rfl, rfl⟩) (fun _ _ => ⟨rfl, rfl⟩) (fun _ _ => ⟨rfl, rfl⟩)
    (k5_pay1 (F := Ideal) (iblk5 V c 0 t) (iblk5 V c 1 t) (iblk5 V c 2 t)) _ _ _ (proj5_pay _ _ _) t
    (fun _ => rfl) (fun _ => rfl) (fun _ => rfl) _

theorem proj5_value (c : Dev nD) (v : Fin 10240) (k : Fin 64) :
    res5 V c (ix2 v k)
      = (∑ j : Fin 1024, act5 V c (ix2 v j) * wt5 V c (ix2 j k))
          + bias5 V c (ix2 0 k) := by
  obtain ⟨t, y, hy⟩ := dense_cover idx5 (e3 := fun t => ((cfg5.win 3).blk t).view.emb) (fun _ _ => ⟨rfl, rfl⟩) N_5 v k
  have h := (dat5 (F := Ideal) V c).arrAt_apply_of_mem 3 (G5 V c) (fun t _ => flushed5_eq V c t) cfg5.N t _ t.isLt (flush5_3 t)
    (View.emb_mem_set _ y)
  rw [show ((cfg5.win 3).blk t).view.emb y = ix2 v k from hy] at h
  exact h

end Cert.KernelIdeal.Val

end
-- ==== Proof.KI.KernelValue.lean ====
import proofs.«429552_j8443905704047_1_alg».proof.Proof.KI.Run
import proofs.«429552_j8443905704047_1_alg».proof.Proof.KI.HostValue
import proofs.«429552_j8443905704047_1_alg».proof.Proof.KI.HostAdj
import proofs.«429552_j8443905704047_1_alg».proof.Proof.KI.AggValue0
import proofs.«429552_j8443905704047_1_alg».proof.Proof.KI.AggValue2
import proofs.«429552_j8443905704047_1_alg».proof.Proof.KI.AggValue4
import proofs.«429552_j8443905704047_1_alg».proof.Proof.KI.ProjValue1
import proofs.«429552_j8443905704047_1_alg».proof.Proof.KI.ProjValue3
import proofs.«429552_j8443905704047_1_alg».proof.Proof.KI.ProjValue5

noncomputable section

namespace Cert.KernelIdeal.Val

open Cert.KernelIdeal Cert.KernelIdeal.Gen Cert.KernelIdeal.Hand Cert.Spec Cert.Decode
open Idealize.ShloMosaic Idealize.ShloMosaic.TcCoe Idealize.ShloMosaic.ValueIdx

variable (m : (ℓ : Loc nD τ sig) → Buf (Elt Ideal) ℓ) (c : Dev nD)

abbrev aH : FVec Ideal S10000x1024 .f32 := m ((c.tc : Thread nD τ).loc main_arg0)
abbrev aW1 : FVec Ideal S1024x1024 .f32 := m ((c.tc : Thread nD τ).loc main_arg3)
abbrev aB1 : FVec Ideal S1024 .f32 := m ((c.tc : Thread nD τ).loc main_arg4)
abbrev aW2 : FVec Ideal S1024x1024 .f32 := m ((c.tc : Thread nD τ).loc main_arg5)
abbrev aB2 : FVec Ideal S1024 .f32 := m ((c.tc : Thread nD τ).loc main_arg6)
abbrev aW3 : FVec Ideal S1024x64 .f32 := m ((c.tc : Thread nD τ).loc main_arg7)
abbrev aB3 : FVec Ideal S64 .f32 := m ((c.tc : Thread nD τ).loc main_arg8)

-- An update read at the updated point gives the new value.
theorem act1_eq : act1 (Vr9 m) c = outs m 8 main_v49 c :=
  (V9_of m _ c main_v49 (by decide)).trans (Function.update_self ..)
theorem feat2_eq : feat2 (Vr10 m) c = outs m 10 main_v51 c := Function.update_self ..
theorem act3_eq : act3 (Vr12 m) c = outs m 11 main_v52 c :=
  (V12_of m _ c main_v52 (by decide)).trans (Function.update_self ..)
theorem feat4_eq : feat4 (Vr13 m) c = outs m 13 main_v54 c := Function.update_self ..
theorem act5_eq : act5 (Vr15 m) c = outs m 14 main_v55 c :=
  (V15_of m _ c main_v55 (by decide)).trans (Function.update_self ..)

variable (hs : SrcOk (aSrc m c)) (hd : DstOk (aDst m c))

abbrev gr : Edges := edges (aSrc m c) (aDst m c) hs
abbrev nS : Fin 10000 → EReal := nrm (aSrc m c)
abbrev nD' : Fin 10000 → EReal := nrm (aDst m c)

def L1 : Fin 10240 → Fin 1024 → EReal :=
  kLayer (gr m c hs) (nS m c) (nD' m c) true (padRows (arr2 (aH m c))) (arr2 (aW1 m c)) (arr1 (aB1 m c))
def L2 : Fin 10240 → Fin 1024 → EReal :=
  kLayer (gr m c hs) (nS m c) (nD' m c) true (L1 m c hs) (arr2 (aW2 m c)) (arr1 (aB2 m c))

include hd

theorem adj10 (o : Outs (F := Ideal)) (v u : Fin 10240) :
    (V10 m o c main_v43 : S10240x10240.Idx → EReal) (ix2 v u) = adj (gr m c hs) (nS m c) (nD' m c) v u := by
  rw [V10_of, V9_of, V8_of]
  · exact hostA m c hs hd v u
  all_goals decide

theorem adj13 (o : Outs (F := Ideal)) (v u : Fin 10240) :
    (V13 m o c main_v43 : S10240x10240.Idx → EReal) (ix2 v u) = adj (gr m c hs) (nS m c) (nD' m c) v u := by
  rw [V13_of, V12_of, V11_of]
  · exact adj10 m c hs hd o v u
  all_goals decide

theorem o51_eq (v : Fin 10240) (k : Fin 1024) :
    (outs m 10 main_v51 c : S10240x1024.Idx → EReal) (ix2 v k) = L1 m c hs v k := by
  rw [outs_v51]
  refine (proj1_value (Vr9 m) c v k).trans ?_
  rw [act1_eq m c, outs_v49]
  simp only [agg0_value (Vr7 m) c, hostA m c hs hd, hostX m c, hostW1 m (outsA m) c, hostB1 m (outsA m) c]
  rfl

theorem o54_eq (v : Fin 10240) (k : Fin 1024) :
    (outs m 13 main_v54 c : S10240x1024.Idx → EReal) (ix2 v k) = L2 m c hs v k := by
  rw [outs_v54]
  refine (proj3_value (Vr12 m) c v k).trans ?_
  rw [act3_eq m c, outs_v52]
  simp only [agg2_value (Vr10 m) c, feat2_eq m c, adj10 m c hs hd (outsB m), o51_eq m c hs hd, hostW2 m (outsC m) c,
    hostB2 m (outsC m) c]
  rfl

theorem o57_eq (v : Fin 10240) (k : Fin 64) : (outs m 16 main_v57 c : S10240x64.Idx → EReal) (ix2 v k)
    = kLayer (gr m c hs) (nS m c) (nD' m c) false (L2 m c hs) (arr2 (aW3 m c)) (arr1 (aB3 m c)) v k := by
  rw [outs_v57]
  refine (proj5_value (Vr15 m) c v k).trans ?_
  rw [act5_eq m c, outs_v55]
  simp only [agg4_value (Vr13 m) c, feat4_eq m c, adj13 m c hs hd (outsD m), o54_eq m c hs hd, hostW3 m (outsE m) c,
    hostB3 m (outsE m) c]
  rfl

-- The three dense layers of the specification, read at the rows below 10000.
theorem kernel_value (v : Fin 10000) (k : Fin 64) :
    (V17 m (outs m) c main_v58 : S10000x64.Idx → EReal) (ix2 v k)
      = kNet (gr m c hs) (nS m c) (nD' m c) (arr2 (aH m c)) (arr2 (aW1 m c)) (arr1 (aB1 m c)) (arr2 (aW2 m c)) (arr1 (aB2 m c))
          (arr2 (aW3 m c)) (arr1 (aB3 m c)) v k := by
  rw [hostOut m (outs m) c v k]
  have e : (V16 m (outs m) c main_v57 : S10240x64.Idx → EReal) = outs m 16 main_v57 c := Function.update_self ..
  rw [e]
  exact o57_eq m c hs hd (inPad v) k

end Cert.KernelIdeal.Val

end
-- ==== Proof.RefValue.lean ====
import proofs.«429552_j8443905704047_1_alg».proof.Proof.Gen.ReferenceIdeal.Run
import proofs.«429552_j8443905704047_1_alg».proof.Proof.Gen.ReferenceIdeal.Read
import proofs.«429552_j8443905704047_1_alg».proof.Proof.Spec
import proofs.«429552_j8443905704047_1_alg».proof.Proof.Decode
import proofs.«429552_j8443905704047_1_alg».proof.Proof.LibMask
import proofs.«429552_j8443905704047_1_alg».proof.Proof.LibScatter
import Idealize.ShloMosaic.PureOps.Ideal.Laws

open scoped BigOperators

noncomputable section

namespace Cert.ReferenceIdeal.RefValue

open Cert.ReferenceIdeal Cert.ReferenceIdeal.Gen Cert.Spec Cert.Decode Cert.ScatterLib Idealize.ShloMosaic Idealize.ShloMosaic.ValueIdx

section
variable (x1 x2 : IVec S160000 32)

theorem col_src (e : Fin 160000) : Read.val_main_v2 (F := Ideal) x1 (ix2 e 0) = x1 (ix1 e) := by
  rw [Read.val_main_v2_apply]
  exact congrArg x1 (eq_ix1 _)

-- The degree of a node: a sum of ones over the edges whose word is the node, starting from zero.
theorem deg_src (v : Fin 10000) : Read.val_main_v3 (F := Ideal) x1 (ix1 v) = deg x1 v := by
  unfold Read.val_main_v3
  rw [scatterAdd_vector _ rfl rfl rfl rfl, Read.val_main_v1_apply, Read.val_main_cst_0_apply]
  simp only [Read.val_main_v0_apply, Read.val_main_cst_apply, col_src, Ideal.ofBits_def]
  rfl

-- The scale of a node: its degree clipped at one from below, to the power minus one half.
theorem nrm_src (v : Fin 10000) : Read.val_main_v9 (F := Ideal) x1 (ix1 v) = nrm x1 v := by
  rw [Read.val_main_v9_apply, Read.val_main_v7_apply, Read.val_main_call0_v1_apply, Read.val_main_call0_v0_apply,
    Read.val_main_cst_2_apply, Read.val_main_v8_apply, Read.val_main_cst_3_apply, deg_src]
  rfl

-- The source scale laid along the columns is constant along a row; the destination scale is the same expression in the other words.
theorem ns1 (u : Fin 10000) (j : Fin 1024) : Read.val_main_v14 (F := Ideal) x1 (ix2 u j) = nrm x1 u := by
  rw [Read.val_main_v14_apply, Read.val_main_v13_apply]
  exact (congrArg (Read.val_main_v9 (F := Ideal) x1) (eq_ix1 _)).trans (nrm_src x1 u)

theorem nd1 (u : Fin 10000) (j : Fin 1024) : Read.val_main_v27 (F := Ideal) x2 (ix2 u j) = nrm x2 u :=
  ns1 x2 u j

theorem dtab1 (e : Fin 160000) : Read.val_main_v24 (F := Ideal) x2 (ix2 e 0) = x2 (ix1 e) :=
  col_src x2 e

theorem z1 (i : S10000x1024.Idx) : Read.val_main_v23 (F := Ideal) i = Ideal.ofBits .f32 0x00000000#32 := by
  rw [Read.val_main_v23_apply, Read.val_main_cst_7_apply]; rfl

variable (hs : SrcOk x1) (hd : DstOk x2)
include hs

-- The source words are nodes, so wrapping negative words changes nothing and the index table's column is the words.
theorem stab1 (e : Fin 160000) : Read.val_main_v21 (F := Ideal) x1 (ix2 e 0) = x1 (ix1 e) := by
  have hw : Read.val_main_v20 (F := Ideal) x1 = x1 := by
    unfold Read.val_main_v20 Read.val_main_v17
    exact Cert.MaskLib.wrap_id x1 _ _ (fun i => by rw [Read.val_main_v16_apply]; rfl)
      (fun i => by rw [eq_ix1 i]; exact (hs _).1)
  rw [Read.val_main_v21_apply, hw]
  exact congrArg x1 (eq_ix1 _)

include hd
variable (X : FVec Ideal S10000x1024 .f32) (f : Fin 10000 → Fin 1024 → EReal) (hX : ∀ u j, X (ix2 u j) = f u j)
include hX

-- One layer's aggregate: scale the rows by the source scale, read every edge's source row, add it into the edge's destination row starting from zero, scale by the destination scale.
theorem agg (v : Fin 10000) (j : Fin 1024) :
    Read.val_main_v28 (F := Ideal) X x1 x2 (ix2 v j)
      = (0 + ∑ e ∈ Finset.univ.filter (fun e : Fin En => (edges x1 x2 hs).d e = v.val),
            f ((edges x1 x2 hs).s e) j * nrm x1 ((edges x1 x2 hs).s e)) * nrm x2 v := by
  unfold Read.val_main_v28 Read.val_main_v25 Read.val_main_v22 Read.val_main_v15
  rw [mulf_apply, scatterAdd_rows _ rfl rfl rfl rfl, z1, nd1, Ideal.ofBits_zero_f32]
  have hfil : Finset.univ.filter (fun e : Fin 160000 => (Read.val_main_v24 (F := Ideal) x2 (ix2 e 0)).toInt = (v.val : ℤ))
      = Finset.univ.filter (fun e : Fin En => (edges x1 x2 hs).d e = v.val) :=
    Finset.filter_congr fun e _ => by rw [dtab1, d_eq_iff x1 x2 hs hd]
  rw [hfil]
  refine congrArg (fun s => (0 + s) * nrm x2 v) (Finset.sum_congr rfl fun e _ => ?_)
  have h := hs e
  have hr : ∀ p, (⟨(Read.val_main_v21 (F := Ideal) x1 (ix2 e 0)).toInt.toNat, p⟩ : Fin 10000) = (edges x1 x2 hs).s e :=
    fun _ => Fin.ext (congrArg (fun w : BitVec 32 => w.toInt.toNat) (stab1 x1 hs e))
  rw [gather_rows _ rfl rfl rfl rfl rfl _ _ e j (by rw [stab1 x1 hs]; exact h.1) (by rw [stab1 x1 hs]; have := h.2; omega),
    hr, mulf_apply, hX, ns1]

-- One layer with the clamp at zero is the sparse layer of the specification on whatever its input reads as.
theorem layer (W : FVec Ideal S1024x1024 .f32) (B : FVec Ideal S1024 .f32) (v : Fin 10000) (c : Fin 1024) :
    Read.val_main_v33 (F := Ideal) X x1 x2 W B (ix2 v c)
      = rLayer (edges x1 x2 hs) (nrm x1) (nrm x2) true f (arr2 W) (arr1 B) v c := by
  rw [Read.val_main_v33_apply, Read.val_main_v32_apply, Read.val_main_v29_apply, Read.val_main_v31_apply,
    Read.val_main_v30_apply, Read.val_main_call2_v0_apply, Read.val_main_call2_cst_apply]
  simp only [show ∀ k : Fin 1024, Read.lidx_main_v29 (ix2 v c) k = ix2 v k from fun _ => eq_ix2 _,
    show ∀ k : Fin 1024, Read.ridx_main_v29 (ix2 v c) k = ix2 k c from fun _ => eq_ix2 _,
    show Read.idx_main_v30 (Read.idx_main_v31 (ix2 v c)) = ix1 c from eq_ix1 _, agg x1 x2 hs hd X f hX]
  show _ = max (rPre _ _ _ _ _ _ _ _) 0
  unfold rPre
  simp only [arr2, arr1, Ideal.maximumf_def, Ideal.addf_def, Ideal.ofBits_def, Ideal.ofBits_zero_f32]

end

-- The second and third layers are the first layer's expression applied to the layer before.
theorem ref_value (x0 : FVec Ideal S10000x1024 .f32) (x1 x2 : IVec S160000 32) (x3 : FVec Ideal S1024x1024 .f32)
    (x4 : FVec Ideal S1024 .f32) (x5 : FVec Ideal S1024x1024 .f32) (x6 : FVec Ideal S1024 .f32)
    (x7 : FVec Ideal S1024x64 .f32) (x8 : FVec Ideal S64 .f32)
    (hs : SrcOk x1) (hd : DstOk x2) (v : Fin 10000) (c : Fin 64) :
    Read.val_main_v74 (F := Ideal) x0 x1 x2 x3 x4 x5 x6 x7 x8 (ix2 v c)
      = rNet (edges x1 x2 hs) (nrm x1) (nrm x2) (arr2 x0) (arr2 x3) (arr1 x4) (arr2 x5) (arr1 x6) (arr2 x7) (arr1 x8) v c := by
  rw [Read.val_main_v74_apply, Read.val_main_v71_apply, Read.val_main_v73_apply, Read.val_main_v72_apply]
  have hagg : ∀ j, Read.val_main_v70 (F := Ideal) x0 x1 x2 x3 x4 x5 x6 (ix2 v j) = _ := fun j =>
    agg x1 x2 hs hd _ _ (layer x1 x2 hs hd _ _ (layer x1 x2 hs hd x0 (arr2 x0) (fun _ _ => rfl) x3 x4) x5 x6) v j
  simp only [show ∀ k : Fin 1024, Read.lidx_main_v71 (ix2 v c) k = ix2 v k from fun _ => eq_ix2 _,
    show ∀ k : Fin 1024, Read.ridx_main_v71 (ix2 v c) k = ix2 k c from fun _ => eq_ix2 _,
    show Read.idx_main_v72 (Read.idx_main_v73 (ix2 v c)) = ix1 c from eq_ix1 _, hagg]
  show _ = rPre _ _ _ _ _ _ _ _
  unfold rPre
  simp only [arr2, arr1, Ideal.addf_def]

end Cert.ReferenceIdeal.RefValue

end
-- ==== Proof.PreDecode.lean ====
import proofs.«429552_j8443905704047_1_alg».proof.Pre_finite_inputs
import proofs.«429552_j8443905704047_1_alg».proof.Proof.Decode
import proofs.«429552_j8443905704047_1_alg».proof.Proof.LibMask
import Idealize.ShloMosaic.Lib.ReduceAll

noncomputable section

namespace Cert.PreDecode

open Idealize.ShloMosaic Idealize.ShloMosaic.ValueIdx Cert.Pre_finite_inputs Cert.Spec Cert.Decode Cert.MaskLib

instance : Subsingleton S_.Idx := ⟨fun _ _ => funext fun d => d.elim0⟩

theorem inf_word : Ideal.ofBits .f32 0x7F800000#32 = (⊤ : EReal) := by
  simp [Ideal.ofBits, Ideal.ieee]

-- An extended real whose absolute value is below infinity is a real number.
theorem real_of_abs_lt_inf (x : EReal)
    (h : Ideal.cmp .olt (max x (-x)) (Ideal.ofBits .f32 0x7F800000#32) = 1#1) : ∃ r : ℝ, x = (r : EReal) := by
  rw [inf_word] at h
  have hlt : max x (-x) < ⊤ := of_decide_eq_true ((StableHlo.Predicate.ofBool_eq_one_iff _).1 h)
  induction x using EReal.rec with
  | bot => simp at hlt
  | coe r => exact ⟨r, rfl⟩
  | top => simp at hlt

variable [Facts]

theorem of_pre (x0 : FVec Ideal S10000x1024 .f32) (x1 x2 : IVec S160000 32) (x3 : FVec Ideal S1024x1024 .f32)
    (x4 : FVec Ideal S1024 .f32) (x5 : FVec Ideal S1024x1024 .f32) (x6 : FVec Ideal S1024 .f32)
    (x7 : FVec Ideal S1024x64 .f32) (x8 : FVec Ideal S64 .f32)
    (h : Cert.Pre_finite_inputs.fn (F := Ideal) x0 x1 x2 x3 x4 x5 x6 x7 x8 = fun _ => 1#1) :
    Real2 (arr2 x0) ∧ SrcOk x1 ∧ DstOk x2
      ∧ Real2 (arr2 x3) ∧ Real1 (arr1 x4)
      ∧ Real2 (arr2 x5) ∧ Real1 (arr1 x6)
      ∧ Real2 (arr2 x7) ∧ Real1 (arr1 x8) := by
  have h0 := congrFun h ix0
  dsimp only [fn, fn_part1, fn_part2] at h0
  simp only [andi, IntOp.andi_eq_one] at h0
  obtain ⟨⟨⟨⟨⟨⟨⟨⟨⟨e0, e3⟩, e4⟩, e5⟩, e6⟩, e7⟩, e8⟩, eSge⟩, eSlt⟩, eD⟩ := h0
  exact ⟨fun p q => real_of_abs_lt_inf _ (Host.reduce_andi_all _ _ _ _ _ e0 (ix2 p q)),
    fun e => ⟨IntOp.cmpi_sge.1 (Host.reduce_andi_all _ _ _ _ _ eSge (ix1 e)),
      IntOp.cmpi_slt.1 (Host.reduce_andi_all _ _ _ _ _ eSlt (ix1 e))⟩,
    fun e => IntOp.cmpi_sge.1 (Host.reduce_andi_all _ _ _ _ _ eD (ix1 e)),
    fun p q => real_of_abs_lt_inf _ (Host.reduce_andi_all _ _ _ _ _ e3 (ix2 p q)),
    fun p => real_of_abs_lt_inf _ (Host.reduce_andi_all _ _ _ _ _ e4 (ix1 p)),
    fun p q => real_of_abs_lt_inf _ (Host.reduce_andi_all _ _ _ _ _ e5 (ix2 p q)),
    fun p => real_of_abs_lt_inf _ (Host.reduce_andi_all _ _ _ _ _ e6 (ix1 p)),
    fun p q => real_of_abs_lt_inf _ (Host.reduce_andi_all _ _ _ _ _ e7 (ix2 p q)),
    fun p => real_of_abs_lt_inf _ (Host.reduce_andi_all _ _ _ _ _ e8 (ix1 p))⟩

end Cert.PreDecode

end
-- ==== Proof.lean ====
import proofs.«429552_j8443905704047_1_alg».proof.Defs
import proofs.«429552_j8443905704047_1_alg».proof.Proof.Gen.Kernel
import proofs.«429552_j8443905704047_1_alg».proof.Proof.Gen.KernelIdeal
import proofs.«429552_j8443905704047_1_alg».proof.Proof.Gen.ReferenceIdeal
import proofs.«429552_j8443905704047_1_alg».proof.Proof.Gen.Pre_finite_inputs
import proofs.«429552_j8443905704047_1_alg».proof.Proof.Gen.ReferenceIdeal.Run
import proofs.«429552_j8443905704047_1_alg».proof.Proof.Gen.ReferenceIdeal.Read
import proofs.«429552_j8443905704047_1_alg».proof.Proof.K.Run
import proofs.«429552_j8443905704047_1_alg».proof.Proof.KI.Run
import proofs.«429552_j8443905704047_1_alg».proof.Proof.KI.KernelValue
import proofs.«429552_j8443905704047_1_alg».proof.Proof.RefValue
import proofs.«429552_j8443905704047_1_alg».proof.Proof.PreDecode
import proofs.«429552_j8443905704047_1_alg».proof.Proof.Spec
import proofs.«429552_j8443905704047_1_alg».proof.Proof.Decode

noncomputable section

namespace Cert.Proof

open Idealize.ShloMosaic Idealize.ShloMosaic.TcCoe Idealize.SL.Sem Idealize.ShloMosaic.ValueIdx

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

-- Both results are the three layers of the specification, in the dense and the sparse arrangement, which agree on real entries.
theorem algebraic : Cert.algebraic_KernelIdeal_ReferenceIdeal := by
  intro m ρ m' ρ' hpre hagree
  refine ⟨fun c => Cert.KernelIdeal.Gen.V17 m (Cert.KernelIdeal.Hand.outs m) c Cert.KernelIdeal.main_v58,
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, hs, hd, h3, h4, h5, h6, h7, h8⟩ := Cert.PreDecode.of_pre _ _ _ _ _ _ _ _ _ (hpre c)
  rw [Cert.ReferenceIdeal.Read.val_main_v74_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1, (hagree c).2.2.2.2.2.2.2.2]
  funext i
  obtain ⟨v, k, rfl⟩ : ∃ (v : Fin 10000) (k : Fin 64), i = ix2 v k := ⟨i 0, i 1, eq_ix2 i⟩
  refine (Cert.ReferenceIdeal.RefValue.ref_value _ _ _ _ _ _ _ _ _ hs hd v k).trans ?_
  refine (Cert.Spec.kNet_eq_rNet _ _ _ (Cert.Decode.nrm_real _) (Cert.Decode.nrm_real _) _ _ _ _ _ _ _ h0 h3 h4 h5 h6 h7 h8 v k).symm.trans ?_
  exact (Cert.KernelIdeal.Val.kernel_value m c hs hd v k).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
